-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S176x128 : Shape := ⟨2, ![176, 128]⟩
abbrev S50176x128 : Shape := ⟨2, ![50176, 128]⟩
abbrev S851968x128 : Shape := ⟨2, ![851968, 128]⟩
abbrev S8192 : Shape := ⟨1, ![8192]⟩
abbrev S1024x128 : Shape := ⟨2, ![1024, 128]⟩
abbrev S8192x128 : Shape := ⟨2, ![8192, 128]⟩
abbrev S8192x1 : Shape := ⟨2, ![8192, 1]⟩
abbrev S1x1024 : Shape := ⟨2, ![1, 1024]⟩
abbrev S8192x1024 : Shape := ⟨2, ![8192, 1024]⟩
abbrev S1x8192 : Shape := ⟨2, ![1, 8192]⟩
abbrev S1024x1 : Shape := ⟨2, ![1024, 1]⟩
abbrev S1024x8192 : Shape := ⟨2, ![1024, 8192]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 64
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S1968, .i32⟩
  | .hbm, ⟨48, _⟩ => ⟨S851968, .i32⟩
  | .hbm, ⟨49, _⟩ => ⟨S_, .i32⟩
  | .hbm, ⟨50, _⟩ => ⟨S1968, .i32⟩
  | .hbm, ⟨51, _⟩ => ⟨S851968, .i32⟩
  | .hbm, ⟨52, _⟩ => ⟨S_, .f32⟩
  | .hbm, ⟨53, _⟩ => ⟨S1968, .f32⟩
  | .hbm, ⟨54, _⟩ => ⟨S851968, .f32⟩
  | .hbm, ⟨55, _⟩ => ⟨S50000x128, .bf16⟩
  | .hbm, ⟨56, _⟩ => ⟨S_, .bf16⟩
  | .hbm, ⟨57, _⟩ => ⟨S176x128, .bf16⟩
  | .hbm, ⟨58, _⟩ => ⟨S50176x128, .bf16⟩
  | .hbm, ⟨59, _⟩ => ⟨S851968x128, .bf16⟩
  | .hbm, ⟨60, _⟩ => ⟨S50176x128, .f32⟩
  | .hbm, ⟨61, _⟩ => ⟨S128x128, .f32⟩
  | .hbm, ⟨62, _⟩ => ⟨S128x128, .bf16⟩
  | .hbm, ⟨63, _⟩ => ⟨S50000x128, .f32⟩
  | .local _ .vmem, ⟨0, _⟩ => ⟨S8192, .i32⟩
  | .local _ .vmem, ⟨1, _⟩ => ⟨S8192, .i32⟩
  | .local _ .vmem, ⟨2, _⟩ => ⟨S8192, .f32⟩
  | .local _ .vmem, ⟨3, _⟩ => ⟨S8192, .f32⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192, .i32⟩
  | .local _ .vmem, ⟨10, _⟩ => ⟨S8192, .i32⟩
  | .local _ .vmem, ⟨11, _⟩ => ⟨S8192x128, .bf16⟩
  | .local _ .vmem, ⟨12, _⟩ => ⟨S8192x128, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S5000x128, .f32⟩
  | .local _ .vmem, ⟨17, _⟩ => ⟨S5000x128, .f32⟩
  | .local _ .vmem, ⟨18, _⟩ => ⟨S128x128, .bf16⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨2, ![104, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 104], ![false, false]⟩

def k1_cond2 (i : grid1.Coords) : BitVec 1 :=
  let arg1 : BitVec 32 := BitVec.ofNat 32 (i 1).val
  let c103_i32 : BitVec 32 := 103#32
  let v24 : BitVec 1 := Scalar.cmpi .eq arg1 c103_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1968 : S_.BroadcastsInDim S1968 (![] : Fin 0 → Fin S1968.rank)
  concatenates_S850000_S1968_S851968_d0 : Shape.Concatenates [S850000, S1968] S851968 0
  bitsLt_bf16_f32 : FTy.bits .bf16 < FTy.bits .f32
  bcast_S_S176x128 : S_.BroadcastsInDim S176x128 (![] : Fin 0 → Fin S176x128.rank)
  concatenates_S50000x128_S176x128_S50176x128_d0 : Shape.Concatenates [S50000x128, S176x128] S50176x128 0
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  iota_S1x1024_d1_w32 : S1x1024.Iotas .tc 32 [1]
  broadcasts_S8192x1_S8192x1024 : S8192x1.Broadcasts S8192x1024
  broadcasts_S1x1024_S8192x1024 : S1x1024.Broadcasts S8192x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S8192x1_S8192x128 : S8192x1.Broadcasts S8192x128
  packedbf16_S8192x128_S8192x128_0_0 : (Rect.unit (s := S8192x128) ![0, 0] S8192x128.size inb_S8192x128_S8192x128_0_0).PackedRows (EltTy.packing .bf16)
  shapeCasts_S8192_S1x8192 : S8192.ShapeCasts S1x8192
  iota_S1024x1_d0_w32 : S1024x1.Iotas .tc 32 [0]
  broadcasts_S1024x1_S1024x8192 : S1024x1.Broadcasts S1024x8192
  broadcasts_S1x8192_S1024x8192 : S1x8192.Broadcasts S1024x8192
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S8192x1024_S1024x128_S8192x128_1_0_0_1_n_n_wf : DotDims.WF S8192x1024 S1024x128 S8192x128 [1] [0] [0] [1] [] []
  dot_S1024x8192_S8192x128_S1024x128_1_0_0_1_n_n_wf : DotDims.WF S1024x8192 S8192x128 S1024x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S851968.size a
  hwx0_0 : ∀ i : grid0.Coords, EltTy.bits .i32 = 32 ∨ (Rect.block (s := S851968) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S851968.size a
  hwx0_1 : ∀ i : grid0.Coords, EltTy.bits .f32 = 32 ∨ (Rect.block (s := S851968) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .bf16 = 32 ∨ (Rect.block (s := S50176x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S851968x128.size a
  hwx0_3 : ∀ i : grid0.Coords, EltTy.bits .bf16 = 32 ∨ (Rect.block (s := S851968x128) S8192x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S851968.size a
  hwx1_0 : ∀ i : grid1.Coords, EltTy.bits .i32 = 32 ∨ (Rect.block (s := S851968) S8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S851968x128.size a
  hwx1_1 : ∀ i : grid1.Coords, EltTy.bits .bf16 = 32 ∨ (Rect.block (s := S851968x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S5000x128.size a < S50176x128.size a
  hwx2_0 : ∀ i : grid2.Coords, EltTy.bits .f32 = 32 ∨ (Rect.unit (s := S50176x128) (fun a => cc2_transform_0 i a * S5000x128.size a) (fun a => (Pipeline.Clip.of (cc2_transform_0 i a) (S5000x128.size a) (S50176x128.size a)).extent (S5000x128.size a)) fun a => Pipeline.Clip.inb (Pipeline.Clip.ok_of (hstart2_0 i a))).WholeWords (EltTy.packing .f32)
  hwxs2_0 : ∀ i : grid2.Coords, EltTy.bits .f32 = 32 ∨ (Rect.unit (s := S5000x128) (fun _ => 0) (fun a => (Pipeline.Clip.of (cc2_transform_0 i a) (S5000x128.size a) (S50176x128.size a)).extent (S5000x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v31) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v33) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpecClip (Memref.whole main_v40) S5000x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v42) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S128x128, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KR0Runs.lean ====
import proofs.«413077_j6382321402034_1_alg».proof.Proof.Gen.Kernel.Launch
import proofs.«413077_j6382321402034_1_alg».proof.Proof.Gen.Kernel.Skeleton
import proofs.«413077_j6382321402034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1

theorem hcond0_1 : ∀ t : Fin cfg0.N, cond0_1 (grid0.coords t) ↔ t.val % 49 = 48 :=
  (by decide +kernel : ∀ t : Fin grid0.N, cond0_1 (grid0.coords t) ↔ t.val % 49 = 48)

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

abbrev VO0_3 : View sig .tc .vmem S8192x128 .bf16 := (Memref.whole cc0_stg3_0 : Memref sig .tc .vmem S8192x128 .bf16).view

abbrev ms0_0 (t : Fin cfg0.N) : Memref sig .tc .vmem S8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .bf16 := win0_3.stage (cfg0.slots t 3)
abbrev hs0_3 (t : Fin cfg0.N) : (ms0_3 t).IsWhole := hstage0_3 ((cfg0.slots t 3).cast nbuf0_3)

abbrev scM0_0 : Memref sig .tc .vmem S8192x128 .f32 := Memref.whole cc0_scratch0

abbrev VS0_0 : View sig .tc .vmem S8192x128 .f32 := scM0_0.view

end Cert.Kernel.Fr

end
-- ==== Proof.KR0RunA.lean ====
import proofs.«413077_j6382321402034_1_alg».proof.Proof.KR0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A whole buffer that reads as `x` holds exactly the contents that read back as `x`.
theorem owns_isWhole {sp : Space} {sh : Shape} {e : EltTy} (c : Dev nD) (a : Memref sig .tc sp sh e) (ha : a.IsWhole) (x : Vec F sh e) :
    (owns (c : Thread nD τ) a fullShare x : sProp 𝕄) = (a.view.loc (c : Thread nD τ) ↦[a.view.set]{fullShare} ha.unread x) :=
  equiv_iff.mp ⟨by
    show (_ : sProp 𝕄) ⊢ _; unfold owns; iintro ⟨%f, %hf, H⟩; obtain rfl := ha.eq_unread hf; iexact H, by
    show (_ : sProp 𝕄) ⊢ _; unfold owns; iintro H; iexists _; isplitr; · ipureintro; exact ha.read_unread _
    iexact H⟩

noncomputable def kernelRun0_A (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : cond0_0 i) (hc1 : ¬cond0_1 i)
    (x0 : Vec F S8192 .i32) (x1 : Vec F S8192 .f32) (x2 : Vec F S1024x128 .bf16) :
    Σ' (L3 : List (View.Piece (Elt F) S8192x128 .bf16)), { LS0 : List (View.Piece (Elt F) S8192x128 .f32) //
      ∀ (xi3 : Vec F S8192x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    rw [owns_isWhole c arg2 harg2, owns_isWhole c arg3 harg3, owns_isWhole c arg4 harg4, owns_isWhole c arg5 harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.Kernel.Fr

end
-- ==== Proof.KR0RunB.lean ====
import proofs.«413077_j6382321402034_1_alg».proof.Proof.KR0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def kernelRun0_B (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : ¬cond0_0 i) (hc1 : ¬cond0_1 i)
    (x0 : Vec F S8192 .i32) (x1 : Vec F S8192 .f32) (x2 : Vec F S1024x128 .bf16) (xs0 : Vec F S8192x128 .f32) :
    Σ' (L3 : List (View.Piece (Elt F) S8192x128 .bf16)), { LS0 : List (View.Piece (Elt F) S8192x128 .f32) //
      ∀ (xi3 : Vec F S8192x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    rw [owns_isWhole c arg2 harg2, owns_isWhole c arg3 harg3, owns_isWhole c arg4 harg4, owns_isWhole c arg5 harg5, owns_isWhole c arg6 harg6]
    iintro ⟨H0, H1, H2, H3, HS0, Hk⟩
    sl_exec (disch := first | exact hc0 | exact hc1)
    sl_step
    iapply Hk
    iframe H0 H1 H2 H3
    iexists _; iexact HS0

end Cert.Kernel.Fr

end
-- ==== Proof.KR0RunC.lean ====
import proofs.«413077_j6382321402034_1_alg».proof.Proof.KR0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def kernelRun0_C (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : ¬cond0_0 i) (hc1 : cond0_1 i)
    (x0 : Vec F S8192 .i32) (x1 : Vec F S8192 .f32) (x2 : Vec F S1024x128 .bf16) (xs0 : Vec F S8192x128 .f32) :
    Σ' (L3 : List (View.Piece (Elt F) S8192x128 .bf16)), { LS0 : List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    rw [owns_isWhole c arg2 harg2, owns_isWhole c arg3 harg3, owns_isWhole c arg4 harg4, owns_isWhole c arg6 harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Fr

end
-- ==== Proof.KR0Frame.lean ====
import proofs.«413077_j6382321402034_1_alg».proof.Proof.KR0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole)

section
variable (hc0 : cond0_0 i) (hc1 : ¬cond0_1 i) (x0 : Vec F S8192 .i32) (x1 : Vec F S8192 .f32) (x2 : Vec F S1024x128 .bf16)

theorem scover0_A_0 (y : S8192x128.Idx) : ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8192x128.size (by sl_kernel_rfl) y

def sout0_A_0 : Vec F S8192x128 .f32 :=
  VS0_0.read (Elt F) (VS0_0.writes (Elt F) VS0_0.junk (kernelRun0_A c i arg2 harg2 arg3 harg3 arg4 harg4 arg5 harg5 arg6 harg6 hc0 hc1 x0 x1 x2).2.1)

end

section
variable (hc0 : ¬cond0_0 i) (hc1 : ¬cond0_1 i) (x0 : Vec F S8192 .i32) (x1 : Vec F S8192 .f32) (x2 : Vec F S1024x128 .bf16) (xs0 : Vec F S8192x128 .f32)

theorem scover0_B_0 (y : S8192x128.Idx) : ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S8192x128.size (by sl_kernel_rfl) y

def sout0_B_0 : Vec F S8192x128 .f32 :=
  VS0_0.read (Elt F) (VS0_0.writes (Elt F) VS0_0.junk (kernelRun0_B c i arg2 harg2 arg3 harg3 arg4 harg4 arg5 harg5 arg6 harg6 hc0 hc1 x0 x1 x2 xs0).2.1)

end

section
variable (hc0 : ¬cond0_0 i) (hc1 : cond0_1 i) (x0 : Vec F S8192 .i32) (x1 : Vec F S8192 .f32) (x2 : Vec F S1024x128 .bf16) (xs0 : Vec F S8192x128 .f32)

theorem cover0_C_3 (y : S8192x128.Idx) : ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8192x128.size (by sl_kernel_rfl) y

def out0_C_3 : Vec F S8192x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (y : S8192x128.Idx) : ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8192x128.size (by sl_kernel_rfl) y

def sout0_C_0 : Vec F S8192x128 .f32 :=
  VS0_0.read (Elt F) (VS0_0.writes (Elt F) VS0_0.junk (kernelRun0_C c i arg2 harg2 arg3 harg3 arg4 harg4 arg5 harg5 arg6 harg6 hc0 hc1 x0 x1 x2 xs0).2.1)

end

end

def step0 (c : Dev nD) (t : Fin cfg0.N) (p : Vec F S8192x128 .f32) : Vec F S8192x128 .bf16 × Vec F S8192x128 .f32 :=
  if h0 : t.val % 49 = 0 then
    (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t) (iblk0 V c 2 t))
  else if h1 : t.val % 49 = 48 then
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) p, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) p)
  else
    (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) p)

def outsAt0 (c : Dev nD) : (n : ℕ) → n < cfg0.N → Vec F S8192x128 .bf16 × Vec F S8192x128 .f32
  | 0, hn => step0 V c ⟨0, hn⟩ (VS0_0.read (Elt F) VS0_0.junk)
  | n + 1, hn => step0 V c ⟨n + 1, hn⟩ (outsAt0 c n (Nat.lt_of_succ_lt hn)).2

theorem outsAt0_A (c : Dev nD) (t : Fin cfg0.N) (h0 : t.val % 49 = 0) (h1 : ¬t.val % 49 = 48) :
    outsAt0 V c t.val t.isLt = (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨_ | n, hn⟩ := t <;> (show step0 V c _ _ = _; exact dif_pos h0)

theorem outsAt0_B (c : Dev nD) (t : Fin cfg0.N) (h0 : ¬t.val % 49 = 0) (h1 : ¬t.val % 49 = 48) :
    outsAt0 V c t.val t.isLt = (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨_ | n, hn⟩ := t
  · exact absurd (Nat.zero_mod _) h0
  · exact (dif_neg h0).trans (dif_neg h1)

theorem outsAt0_C (c : Dev nD) (t : Fin cfg0.N) (h0 : ¬t.val % 49 = 0) (h1 : t.val % 49 = 48) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨_ | n, hn⟩ := t
  · exact absurd (Nat.zero_mod _) h0
  · exact (dif_neg h0).trans (dif_pos h1)

theorem PhiA0_ex (c : Dev nD) : ∃ R : sProp 𝕄, (Pipeline.ΦA spec0 c : sProp 𝕄) = iprop(iprop((∃ d, owns (c : Thread nD τ) scM0_0 fullShare d) ∗ R) ∗ (∃ r, prngReg c r)) :=
  ⟨_, by unfold Pipeline.ΦA; rw [scopedRest0_eq]; simp only [scM0_0, owns_whole]; rfl⟩

def rest0 (c : Dev nD) : sProp 𝕄 := (PhiA0_ex (F := F) c).choose

theorem PhiA0_split (c : Dev nD) :
    (Pipeline.ΦA spec0 c : sProp 𝕄) = iprop(iprop((∃ d, owns (c : Thread nD τ) scM0_0 fullShare d) ∗ rest0 (F := F) c) ∗ (∃ r, prngReg c r)) :=
  (PhiA0_ex (F := F) c).choose_spec

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

theorem PhiS0_out (c : Dev nD) : ∀ n h, PhiS0 V c n h ⊢ iprop(iprop((∃ d, owns (c : Thread nD τ) scM0_0 fullShare d) ∗ rest0 (F := F) c) ∗ (∃ r, prngReg c r))
  | 0, _ => .of_eq (PhiA0_split c)
  | _ + 1, _ => sep_mono_l (sep_mono_l (exists_intro (Φ := fun d => owns (c : Thread nD τ) scM0_0 fullShare d) _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem leaves0 (c : Dev nD) (w : Fin cfg0.W) (t : Fin cfg0.N) {X} (h : cfg0.idle w (grid0.coords t) = false) (hX : (dat0 V c).after w t = X) :
    (dat0 V c).leavesExact w t = owns (c : Thread nD τ) ((cfg0.win w).stage (cfg0.slots t w)) fullShare X := by
  subst hX; unfold Dat.leavesExact; rw [h]

/-- A buffer held after writes that cover its whole shape is owned at the contents those writes leave. -/
theorem owns_of_writes {s : Shape} {e : EltTy} (c : Dev nD) (m : Memref sig .tc .vmem s e) (v : View sig .tc .vmem s e) (f') (L : List (View.Piece (Elt F) s e))
    (h : ∀ y, ∃ p ∈ L, y ∈ p.1.set) :
    (iprop(∃ f, m.view.loc (c : Thread nD τ) ↦[m.view.set]{fullShare} m.view.writes (Elt F) f L) : sProp 𝕄) ⊢ owns (c : Thread nD τ) m fullShare (v.read (Elt F) (v.writes (Elt F) f' L)) := by
  iintro ⟨%f, H⟩
  unfold owns; iexists _; isplitr
  swap; · iexact H
  ipureintro; exact View.read_writes_of_cover _ _ _ _ _ h

/-- One step of the loop invariant: the body's run is framed by the rest of the invariant, and what it leaves is re-read as the next invariant. -/
theorem body_step {α0 α1 α2 α3 : Type} {c : Dev nD} {Φ S Sn R G Ho P0 P1 P2 Qs L3 : sProp 𝕄} {P3 P3' Q3 : α3 → sProp 𝕄} {e : Prog (TpuEff nD τ sig (Elt F) Λ₀ .tc) PUnit}
    (hΦ : Φ ⊢ iprop(iprop(S ∗ R) ∗ G)) (h3 : ∀ d, P3 d ⊢ P3' d) (hq3 : ∀ d, Q3 d ⊢ L3) (hqs : Qs ⊢ Sn)
    (run : ∀ d K, iprop(P0 ∗ P1 ∗ P2 ∗ P3' d ∗ S ∗ (iprop(P0 ∗ P1 ∗ P2 ∗ Q3 d ∗ Qs) -∗ K ⟨⟩)) ⊢ wp frame (wpE (defs₀ (F := F)) Variants.none c none) Set.univ e K) :
    iprop(Φ ∗ Ho ∗ (∃ _a : α0, P0) ∗ (∃ _a : α1, P1) ∗ (∃ _a : α2, P2) ∗ (∃ d, P3 d))
      ⊢ wp frame (wpE (defs₀ (F := F)) Variants.none c none) Set.univ e (fun _ => iprop(iprop(iprop(Sn ∗ R) ∗ G) ∗ Ho ∗ P0 ∗ P1 ∗ P2 ∗ L3)) := by
  iintro ⟨HΦ, Ho, ⟨%_, H0⟩, ⟨%_, H1⟩, ⟨%_, H2⟩, ⟨%d, H3⟩⟩
  ihave ⟨⟨HS, Hr⟩, Hg⟩ := hΦ $$ HΦ
  iapply run d
  iframe H0 H1 H2 HS
  isplitl [H3]; · iapply h3; iexact H3
  iintro ⟨H0, H1, H2, H3, HS⟩
  iframe Hr Hg Ho H0 H1 H2
  isplitl [HS]; · iapply hqs; iexact HS
  iapply hq3; iexact H3

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = iprop(iprop(owns (c : Thread nD τ) scM0_0 fullShare ((outsAt0 V c t.val t.isLt).2) ∗ rest0 (F := F) c) ∗ (∃ r, prngReg c r)) from rfl,
    show (dat0 V c).Φ t.castSucc = PhiS0 V c t.val (Nat.le_of_lt t.isLt) from rfl,
    leaves0 V c 0 t (X := iblk0 V c 0 t) rfl rfl, leaves0 V c 1 t (X := iblk0 V c 1 t) rfl rfl, leaves0 V c 2 t (X := iblk0 V c 2 t) rfl rfl]
  by_cases h1 : t.val % 49 = 48
  · have h0 : ¬t.val % 49 = 0 := by omega
    rw [PhiS0_pos V c _ _ (fun e => h0 (by rw [e])), leaves0 V c 3 t (liveAt0_3 t ((hcond0_1 t).mpr h1)) (after0_3 V c t), outsAt0_C V c t h0 h1]
    unfold out0_C_3 sout0_C_0; dsimp only
    refine body_step .rfl ?_ ?_ ?_ fun d K => (kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ K
    exacts [fun _ => by iintro H; iexists _; iexact H, fun _ => owns_of_writes c _ VO0_3 _ _ (cover0_C_3 c _ _ _ _ _ _ _ _ _ _ _ _ _ _ _ _ _), owns_of_writes c _ VS0_0 _ _ (scover0_C_0 c _ _ _ _ _ _ _ _ _ _ _ _ _ _ _ _ _)]
  · rw [Dat.leavesExact_idle (dat0 V c) 3 t (idleAt0_3 t (fun h => h1 ((hcond0_1 t).mp h))) (noFlush0_3 t (fun h => h1 ((hcond0_1 t).mp h)))]
    by_cases h0 : t.val % 49 = 0
    · rw [outsAt0_A V c t h0 h1]
      unfold sout0_A_0; dsimp only
      refine body_step ?_ ?_ ?_ ?_ fun d K => (kernelRun0_A c (grid0.coords t) _ _ _ _ _ _ _ _ _ _ ((hcond0_0 t).mpr h0) (fun h => h1 ((hcond0_1 t).mp h)) (iblk0 V c 0 t) (iblk0 V c 1 t) (iblk0 V c 2 t)).2.2 ((dat0 V c).before 3 t d) Set.univ K
      exacts [PhiS0_out V c _ _, fun _ => .rfl, fun _ => by iintro H; iexists _; iexact H, owns_of_writes c _ VS0_0 _ _ (scover0_A_0 c _ _ _ _ _ _ _ _ _ _ _ _ _ _ _ _)]
    · rw [PhiS0_pos V c _ _ (fun e => h0 (by rw [e])), outsAt0_B V c t h0 h1]
      unfold sout0_B_0; dsimp only
      refine body_step .rfl ?_ ?_ ?_ fun d K => (kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 ((dat0 V c).before 3 t d) Set.univ K
      exacts [fun _ => .rfl, fun _ => by iintro H; iexists _; iexact H, owns_of_writes c _ VS0_0 _ _ (scover0_B_0 c _ _ _ _ _ _ _ _ _ _ _ _ _ _ _ _ _)]

theorem body_obligation0 (c : Dev nD) : BodyObligation (dat0 (F := F) V c) (defs₀ (F := F)) Variants.none () Set.univ := fun t => by
  rw [bigSep_W0, bigSep_W0]
  exact sound_body0 V c t

theorem Phi0_zero (c : Dev nD) : (dat0 V c).Φ 0 = Pipeline.ΦA spec0 c := rfl

theorem Phi0_last (c : Dev nD) : (dat0 V c).Φ (Fin.last cfg0.N) ⊢ Pipeline.ΦA spec0 c :=
  (PhiS0_out V c (Fin.last cfg0.N).val (Nat.le_of_lt_succ (Fin.last cfg0.N).isLt)).trans (.of_eq (PhiA0_split c).symm)

end Cert.Kernel.Fr

end
-- ==== Proof.KR1Runs.lean ====
import proofs.«413077_j6382321402034_1_alg».proof.Proof.Gen.Kernel.Launch
import proofs.«413077_j6382321402034_1_alg».proof.Proof.Gen.Kernel.Skeleton
import proofs.«413077_j6382321402034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 104 = 0 :=
  (by decide +kernel : ∀ t : Fin grid1.N, cond1_0 (grid1.coords t) ↔ t.val % 104 = 0)

abbrev cond1_1 (i : grid1.Coords) : Prop := k1_cond2 i = 1#1

theorem hcond1_1 : ∀ t : Fin cfg1.N, cond1_1 (grid1.coords t) ↔ t.val % 104 = 103 :=
  (by decide +kernel : ∀ t : Fin grid1.N, cond1_1 (grid1.coords t) ↔ t.val % 104 = 103)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

theorem liveAt1_2 : ∀ t : Fin cfg1.N, cond1_1 (grid1.coords t) → cfg1.idle 2 (grid1.coords t) = false := by decide +kernel

abbrev VO1_2 : View sig .tc .vmem S1024x128 .f32 := (Memref.whole cc1_stg2_0 : Memref sig .tc .vmem S1024x128 .f32).view

abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

abbrev scM1_0 : Memref sig .tc .vmem S1024x128 .f32 := Memref.whole cc1_scratch0

abbrev VS1_0 : View sig .tc .vmem S1024x128 .f32 := scM1_0.view

def Rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

-- The region's invariant splits into its own scratch, whole at some contents, and a remainder.
theorem PhiA1_iff (c : Dev nD) :
    (Pipeline.ΦA spec1 c : sProp 𝕄) ⊣⊢ iprop((∃ d, owns (c : Thread nD τ) scM1_0 fullShare d) ∗ Rest1 (F := F) c) := by
  unfold Pipeline.ΦA Rest1
  rw [Pipeline.scopedRest_split_of_list spec1 c [cc1_scratch0] (by decide) (by decide)]
  simp only [scM1_0, owns_whole]
  exact sep_assoc

theorem PhiA1_split (c : Dev nD) :
    (Pipeline.ΦA spec1 c : sProp 𝕄) ⊢ iprop((∃ d, owns (c : Thread nD τ) scM1_0 fullShare d) ∗ Rest1 (F := F) c) :=
  (PhiA1_iff c).1

theorem PhiA1_join (c : Dev nD) :
    iprop((∃ d, owns (c : Thread nD τ) scM1_0 fullShare d) ∗ Rest1 (F := F) c) ⊢ (Pipeline.ΦA spec1 c : sProp 𝕄) :=
  (PhiA1_iff c).2

end Cert.Kernel.Fr

end
-- ==== Proof.KR1RunA.lean ====
import proofs.«413077_j6382321402034_1_alg».proof.Proof.KR1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

noncomputable def kernelRun1_A (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S8192 .i32) (x1 : Vec F S8192x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KR1RunB.lean ====
import proofs.«413077_j6382321402034_1_alg».proof.Proof.KR1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

noncomputable def kernelRun1_B (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S8192 .i32) (x1 : Vec F S8192x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KR1RunC.lean ====
import proofs.«413077_j6382321402034_1_alg».proof.Proof.KR1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

noncomputable def kernelRun1_C (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S8192 .i32) (x1 : Vec F S8192x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KR1Frame.lean ====
import proofs.«413077_j6382321402034_1_alg».proof.Proof.KR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole)

section
variable (hc0 : cond1_0 i) (hc1 : ¬cond1_1 i) (x0 : Vec F S8192 .i32) (x1 : Vec F S8192x128 .bf16)

theorem scover1_A_0 (y : S1024x128.Idx) : ∃ pc ∈ (kernelRun1_A c i arg2 harg2 arg3 harg3 arg4 harg4 arg5 harg5 hc0 hc1 x0 x1).2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg2 harg2 arg3 harg3 arg4 harg4 arg5 harg5 hc0 hc1 x0 x1).2.1)

end

section
variable (hc0 : ¬cond1_0 i) (hc1 : ¬cond1_1 i) (x0 : Vec F S8192 .i32) (x1 : Vec F S8192x128 .bf16) (xs0 : Vec F S1024x128 .f32)

theorem scover1_B_0 (y : S1024x128.Idx) : ∃ pc ∈ (kernelRun1_B c i arg2 harg2 arg3 harg3 arg4 harg4 arg5 harg5 hc0 hc1 x0 x1 xs0).2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg2 harg2 arg3 harg3 arg4 harg4 arg5 harg5 hc0 hc1 x0 x1 xs0).2.1)

end

section
variable (hc0 : ¬cond1_0 i) (hc1 : cond1_1 i) (x0 : Vec F S8192 .i32) (x1 : Vec F S8192x128 .bf16) (xs0 : Vec F S1024x128 .f32)

theorem cover1_C_2 (y : S1024x128.Idx) : ∃ pc ∈ (kernelRun1_C c i arg2 harg2 arg3 harg3 arg4 harg4 arg5 harg5 hc0 hc1 x0 x1 xs0).1, y ∈ pc.1.set :=
  View.cover_of_tiledL _ S1024x128.size (by sl_kernel_rfl) y

def out1_C_2 : Vec F S1024x128 .f32 :=
  VO1_2.read (Elt F) (VO1_2.writes (Elt F) VO1_2.junk (kernelRun1_C c i arg2 harg2 arg3 harg3 arg4 harg4 arg5 harg5 hc0 hc1 x0 x1 xs0).1)

theorem scover1_C_0 (y : S1024x128.Idx) : ∃ pc ∈ (kernelRun1_C c i arg2 harg2 arg3 harg3 arg4 harg4 arg5 harg5 hc0 hc1 x0 x1 xs0).2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg2 harg2 arg3 harg3 arg4 harg4 arg5 harg5 hc0 hc1 x0 x1 xs0).2.1)

end

end

abbrev idle1 : Vec F S1024x128 .f32 := VO1_2.read (Elt F) VO1_2.junk

-- One step of the running sum, from what the scratch held before it.
def step1 (c : Dev nD) (t : Fin cfg1.N) (xs : Vec F S1024x128 .f32) : Vec F S1024x128 .f32 × Vec F S1024x128 .f32 :=
  if h0 : t.val % 104 = 0 then
    (idle1, sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))
  else if h1 : t.val % 104 = 103 then
    (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)
  else
    (idle1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)

def outsAt1 (c : Dev nD) : (n : ℕ) → n < cfg1.N → Vec F S1024x128 .f32 × Vec F S1024x128 .f32
  | 0, hn => step1 V c ⟨0, hn⟩ idle1
  | n + 1, hn => step1 V c ⟨n + 1, hn⟩ (outsAt1 c n (Nat.lt_of_succ_lt hn)).2

theorem outsAt1_A (c : Dev nD) (t : Fin cfg1.N) (h0 : t.val % 104 = 0) (h1 : ¬t.val % 104 = 103) :
    outsAt1 V c t.val t.isLt = (idle1, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 104 = 0) (h1 : ¬t.val % 104 = 103) :
    outsAt1 V c t.val t.isLt = (idle1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 104 = 0) (h1 : t.val % 104 = 103) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ Rest1 (F := F) c)

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ Rest1 (F := F) c) := by
  cases n with
  | zero => exact absurd rfl hz
  | succ n => rfl

-- At every point the invariant yields the scratch, whole at some contents, and the remainder.
theorem PhiS1_open (c : Dev nD) (n : ℕ) (h : n ≤ cfg1.N) :
    PhiS1 V c n h ⊢ iprop((∃ d, owns (c : Thread nD τ) scM1_0 fullShare d) ∗ Rest1 (F := F) c) := by
  cases n with
  | zero => exact PhiA1_split c
  | succ n => rw [PhiS1_pos V c _ h n.succ_ne_zero]; iintro ⟨HS, Hg⟩; iframe Hg; iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem Phi1_zero (c : Dev nD) : (dat1 V c).Φ 0 = Pipeline.ΦA spec1 c := rfl

theorem Phi1_last (c : Dev nD) : (dat1 V c).Φ (Fin.last cfg1.N) ⊢ Pipeline.ΦA spec1 c :=
  (PhiS1_open V c (Fin.last cfg1.N).val (Nat.le_of_lt_succ (Fin.last _).isLt)).trans (PhiA1_join c)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

-- A buffer written piece by piece, the pieces covering its shape, holds what reading the pieces back gives.
theorem owns_of_cover {c : Dev nD} (v' : View sig .tc .vmem S1024x128 .f32) (m : Memref sig .tc .vmem S1024x128 .f32)
    (L : List (View.Piece (Elt F) S1024x128 .f32)) (h : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v'.read (Elt F) (v'.writes (Elt F) v'.junk L)) := by
  iintro ⟨%f, H⟩
  unfold owns; iexists _; isplitr
  swap; · iexact H
  ipureintro; exact View.read_writes_of_cover _ _ _ _ _ h

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = iprop(owns (c : Thread nD τ) scM1_0 fullShare (outsAt1 V c t.val t.isLt).2 ∗ Rest1 (F := F) c) from rfl, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h1 : t.val % 104 = 103
  · have h0 : ¬t.val % 104 = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1, PhiS1_pos V c _ _ (fun e => h0 (by rw [e]))]
    unfold out1_C_2 sout1_C_0; (try dsimp only)
    iintro ⟨⟨HS0, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    iframe H0 H1 HS0
    isplitl [H2]; · iexists _; iexact H2
    iintro ⟨H0, H1, H2, HS0⟩
    iframe Hg Ho H0 H1
    isplitl [HS0]
    · iapply (owns_of_cover VS1_0 scM1_0 _ (scover1_C_0 c _ _ _ _ _ _ _ _ _ _ _ _ _ _)); iexact HS0
    iapply (owns_of_cover VO1_2 (ms1_2 t) _ (cover1_C_2 c _ _ _ _ _ _ _ _ _ _ _ _ _ _)); iexact H2
  · rw [Dat.leavesExact_idle (dat1 V c) 2 t (idleAt1_2 t (fun h => h1 ((hcond1_1 t).mp h))) (noFlush1_2 t (fun h => h1 ((hcond1_1 t).mp h)))]
    by_cases h0 : t.val % 104 = 0
    · rw [outsAt1_A V c t h0 h1]
      unfold sout1_A_0; (try dsimp only)
      iintro ⟨HP, Ho, ⟨%d0, H0⟩, ⟨%d1, H1⟩, ⟨%d2, H2⟩⟩
      icases (PhiS1_open V c _ _) $$ HP with ⟨HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      iframe H0 H1 H2 HS0
      iintro ⟨H0, H1, H2, HS0⟩
      iframe Hg Ho H0 H1
      isplitl [HS0]
      · iapply (owns_of_cover VS1_0 scM1_0 _ (scover1_A_0 c _ _ _ _ _ _ _ _ _ _ _ _ _)); iexact HS0
      iexists _; iexact H2
    · rw [outsAt1_B V c t h0 h1, PhiS1_pos V c _ _ (fun e => h0 (by rw [e]))]
      unfold sout1_B_0; (try dsimp only)
      iintro ⟨⟨HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      iframe H0 H1 H2 HS0
      iintro ⟨H0, H1, H2, HS0⟩
      iframe Hg Ho H0 H1
      isplitl [HS0]
      · iapply (owns_of_cover VS1_0 scM1_0 _ (scover1_B_0 c _ _ _ _ _ _ _ _ _ _ _ _ _ _)); iexact HS0
      iexists _; iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KR2Frame.lean ====
import proofs.«413077_j6382321402034_1_alg».proof.Proof.Gen.Kernel.Launch
import proofs.«413077_j6382321402034_1_alg».proof.Proof.Gen.Kernel.Skeleton
import proofs.«413077_j6382321402034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem xsize2_0 : ∀ (t : Fin grid2.N) (a : Fin 2), win2_0.xsize (grid2.coords t) a = S5000x128.size a := by decide +kernel

theorem moved2_0 (t : Fin grid2.N) (j : S5000x128.Idx) : win2_0.moved (grid2.coords t) j = true :=
  (win2_0.moved_iff (grid2.coords t) j).mpr fun a => by rw [xsize2_0 t a]; exact (j a).isLt

theorem fill2_0 (t : Fin grid2.N) (d d' : S5000x128.Idx → Elt F .f32) (g : (win2_0.xblock (grid2.coords t)).Idx → Elt F .f32) :
    win2_0.fill (grid2.coords t) d g = win2_0.fill (grid2.coords t) d' g := by
  funext j; unfold Window.fill; rw [dif_pos (moved2_0 t j), dif_pos (moved2_0 t j)]

def blk2_0 (c : Dev nD) (t : Fin cfg2.N) : Vec F S5000x128 .f32 :=
  win2_0.fill (grid2.coords t) (fun _ => Scalar.ofBits .f32 0#32) (iblk2 V c 0 t)

theorem blk2_0_apply (c : Dev nD) (t : Fin cfg2.N) (y : S5000x128.Idx) :
    blk2_0 V c t y = iblk2 V c 0 t fun a => ⟨(y a).val, (win2_0.moved_iff (grid2.coords t) y).mp (moved2_0 t y) a⟩ := by
  unfold blk2_0 Window.fill; rw [dif_pos (moved2_0 t y)]

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0

def out2_5 (x0 : Vec F S5000x128 .f32) (x1 : Vec F S128x128 .bf16) (x2 x3 x4 : Vec F S128 .f32) : Vec F S5000x128 .f32 :=
  View.canon [⟨r2_0, k2_pay1 (View.ld x0 r2_0) (View.ld x1 r2_1) (View.ld x2 r2_2) (View.ld x3 r2_2) (View.ld x4 r2_2)⟩]

theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

theorem sound_kernel2 (c : Dev nD) (E : Set ℕ) (i : grid2.Coords)
    (arg1 : Memref sig .tc .vmem S5000x128 .f32) (harg1 : arg1.IsWhole) (arg2 : Memref sig .tc .vmem S128x128 .bf16) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S5000x128 .f32) (harg6 : arg6.IsWhole)
    (x0 : Vec F S5000x128 .f32) (x1 : Vec F S128x128 .bf16) (x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__finalize_kernel i arg1 harg1 arg2 harg2 arg3 harg3 arg4 harg4 arg5 harg5 arg6 harg6) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => blk2_0 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (blk2_0 V c t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = blk2_0 V c t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) :
    (dat2 V c).after 5 t = out2_5 (blk2_0 V c t) (iblk2 V c 1 t) (iblk2 V c 2 t) (iblk2 V c 3 t) (iblk2 V c 4 t) := by dsimp only [dat2]

theorem before2_0 (c : Dev nD) (t : Fin cfg2.N) (d) : (dat2 V c).before 0 t d = blk2_0 V c t := by
  unfold Dat.before; rw [if_pos (fetch2_0 t)]
  unfold Dat.fetched Dat.blockOf blk2_0 iblk2; rw [A_eq2]
  exact fill2_0 t _ _ _

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2_0 V c t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KSegs.lean ====
import proofs.«413077_j6382321402034_1_alg».proof.Proof.Gen.Kernel.Regions
import proofs.«413077_j6382321402034_1_alg».proof.Proof.KR0Frame
import proofs.«413077_j6382321402034_1_alg».proof.Proof.KR1Frame
import proofs.«413077_j6382321402034_1_alg».proof.Proof.KR2Frame

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EntryV (F : FTy → Type) [FloatOps F] : Type :=
  (c : Dev nD) → (b : Ref sig .tc) → Buf (Elt F) ((c : Thread nD τ).loc b)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev u₀ : UR sig nD τ := initOf (Pipeline.cells cfgs cellOf_inj) (Pipeline.launchToks cfgs cellOf_inj)

theorem launch_own : (ownU u₀ : sProp 𝕄)
    ⊢ |={Set.univ}=> iprop(BI.own (emb₁ u₀)
        ∗ bigSep Finset.univ (fun _ : Dev nD => (iprop(emp) : sProp 𝕄))) := by
  iintro Hu; imodintro
  isplitl [Hu]
  · iapply (show (ownU u₀ : sProp 𝕄)
        ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

section Region

variable {p : Fin 3} (lf : Pipeline.LaunchFacts (nD := nD) (τ := τ) cfgs p)
  (pd : (p : Fin 3) → (c : Dev nD) → Dat τ (Elt F) Unit ℕ (UR sig nD τ) ℕ (cfgs p) c)
  (Vi Vo : Dev nD → Valuation τ sig (Elt F)) (wo : Fin (cfgs p).W)
  (hi : ∀ w, w ≠ wo → ((cfgs p).win w).isOut = false)
  (hA : ∀ c w, (pd p c).A w = Vi c (Pipeline.arrRef (cfgs p).spec w))
  (hVo : ∀ c, Vo c = Function.update (Vi c) (Proc.devRef .tc (Pipeline.arrRef (cfgs p).spec wo)) ((pd p c).arrAt wo (cfgs p).N))
  (hs : ∀ c w, (pd p c).q w = fullShare) (hd : ∀ c t, (pd p c).owed t = 0)
  (hb : ∀ c, BodyObligation (pd p c) (defs₀ (F := F)) Variants.none () Set.univ)
  (hz : ∀ c, (pd p c).Φ 0 = Pipeline.ΦA (cfgs p).spec c)
  (hl : ∀ c, (pd p c).Φ (Fin.last (cfgs p).N) ⊢ Pipeline.ΦA (cfgs p).spec c)
  (hr : ∀ c, (pd p c).recorded 0 = Set.univ)

include lf hi hA hVo in
-- Only the output window's array changes: there `Vo` holds the region's result, elsewhere it is `Vi`.
theorem exit_arr (c : Dev nD) (w : Fin (cfgs p).W) :
    (pd p c).arrAt w (cfgs p).N = Vo c (Pipeline.arrRef (cfgs p).spec w) := by
  rw [hVo]
  by_cases h : w = wo
  · subst h; rw [Function.update_self]
  · exact ((pd p c).arrAt_in w (hi w h) _).trans ((hA c w).trans
      (Function.update_of_ne (StableHlo.devRef_ne_of_ne (lf.win.arr_inj.ne h)) _ _).symm)

include hVo in
theorem exit_rest (c : Dev nD) (b : Ref sig .tc) (hb : b ∉ Finset.univ.image (Pipeline.arrRef (cfgs p).spec)) :
    Vo c b = Vi c b := by
  rw [hVo]
  exact Function.update_of_ne (StableHlo.devRef_ne_of_ne fun e => hb (Finset.mem_image.mpr ⟨wo, Finset.mem_univ _, e.symm⟩)) _ _

-- One region's record, stated once for all three: entered at contents `Vi`, left at `Vo`.
def reg : Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hd
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd lf.win lf.arr_whole c
      ((pd p c).share_full (hs c)) (fun b => Vi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [show (pd p c).owed 0 = 0 from hd c 0]
    icases HO with ⟨%W, HO⟩; iexists W; isplitr
    · ipureintro; exact fun x _ => Or.inl (show x ∈ (pd p c).recorded 0 from by rw [hr]; exact Set.mem_univ x)
    iexact HO
  hin c := by
    rw [show (pd p c).Φ 0 = Pipeline.ΦA (cfgs p).spec c from hz c]; unfold Pipeline.ΦA
    iintro ⟨Hp, -, Hr⟩
    iframe
  hout c := by
    rw [Pipeline.ownSems0_none]
    refine (show (pd p c).Φ (Fin.last _) ⊢ Pipeline.ΦA (cfgs p).spec c from hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hs c)) (fun b => Vi c b) (fun b => Vo c b) ((pd p c).arrAt · (cfgs p).N)
      (exit_arr lf pd Vi Vo wo hi hA hVo c) (exit_rest pd Vi Vo wo hVo c)
    rw [Pipeline.unscopedBufs_held] at hjoin
    unfold Pipeline.Dat.owesAt Pipeline.owesWithin
    rw [show (pd p c).owed (Fin.last _) = 0 from hd c _]
    iintro ⟨Ha, HO, HY, Hrest⟩
    imodintro
    isplitl [Ha Hrest]
    · iapply hjoin; iframe
    isplitl [HY]; · iexact HY
    icases HO with ⟨%W, -, HO⟩; iexists W; iexact HO

end Region

variable (m : (ℓ : Loc nD τ sig) → Buf (Elt F) ℓ)

abbrev E0 : EntryV F := fun c b => V3 m c b

def o4 (c : Dev nD) : Buf (Elt F) ((c : Thread nD τ).loc main_v39) := (Fr.dat0 (E0 m) c).arrAt 3 cfg0.N

def X4 (c : Dev nD) : Valuation τ sig (Elt F) := Function.update (V3 m c) main_v39 (o4 m c)

abbrev E1 : EntryV F := fun c b => X4 m c b

def o5 (c : Dev nD) : Buf (Elt F) ((c : Thread nD τ).loc main_v40) := (Fr.dat1 (E1 m) c).arrAt 2 cfg1.N

def X5 (c : Dev nD) : Valuation τ sig (Elt F) := Function.update (X4 m c) main_v40 (o5 m c)

def X6 (c : Dev nD) : Valuation τ sig (Elt F) := StableHlo.after hostOps2 (X5 m c)

abbrev E2 : EntryV F := fun c b => X6 m c b

def o7 (c : Dev nD) : Buf (Elt F) ((c : Thread nD τ).loc main_v43) := (Fr.dat2 (E2 m) c).arrAt 5 cfg2.N

def X7 (c : Dev nD) : Valuation τ sig (Elt F) := Function.update (X6 m c) main_v43 (o7 m c)

def outs : Outs (F := F) := fun J r c =>
  if J = 4 then X4 m c r else if J = 5 then X5 m c r else X7 m c r

theorem outs_4 (c : Dev nD) : outs m 4 main_v39 c = o4 m c := by
  unfold outs; rw [if_pos rfl]; exact Function.update_self _ _ _
theorem outs_5 (c : Dev nD) : outs m 5 main_v40 c = o5 m c := by
  unfold outs; rw [if_neg (by decide), if_pos rfl]; exact Function.update_self _ _ _
theorem outs_7 (c : Dev nD) : outs m 7 main_v43 c = o7 m c := by
  unfold outs; rw [if_neg (by decide), if_neg (by decide)]; exact Function.update_self _ _ _

theorem V4_eq (c : Dev nD) : V4 m (outs m) c = X4 m c :=
  congrArg (Function.update (V3 m c) (Proc.devRef .tc main_v39)) (outs_4 m c)
theorem V5_eq (c : Dev nD) : V5 m (outs m) c = X5 m c := by
  show Function.update (V4 m (outs m) c) (Proc.devRef .tc main_v40) (outs m 5 main_v40 c) = _
  rw [V4_eq, outs_5]; rfl
theorem V6_eq (c : Dev nD) : V6 m (outs m) c = X6 m c := by
  show StableHlo.after hostOps2 (V5 m (outs m) c) = _
  rw [V5_eq]; rfl

theorem E1_of_ne (c : Dev nD) (b : Ref sig .tc) (h : b ≠ main_v39) : E1 m c b = E0 m c b :=
  Function.update_of_ne (StableHlo.devRef_ne_of_ne h : (Proc.devRef .tc b : DevRef τ sig) ≠ Proc.devRef .tc main_v39) _ _

theorem E1_v39 (c : Dev nD) : E1 m c main_v39 = o4 m c := Function.update_self _ _ _

theorem E2_v40 (c : Dev nD) : E2 m c main_v40 = o5 m c :=
  (StableHlo.after_of_writes_sub hostOps2 _ hostOps2_writes (by decide : main_v40 ∉ hostOps2_W)).trans (Function.update_self _ _ _)

theorem E2_v42 (c : Dev nD) : E2 m c main_v42 = V6 m (outs m) c main_v42 :=
  (congrFun (V6_eq m c) _).symm

theorem E2_arg3 (c : Dev nD) : E2 m c main_arg3 = m ((c : Thread nD τ).loc main_arg3) :=
  (congrFun (V6_eq m c) _).symm.trans ((V7_of m _ c _ (by decide)).symm.trans (V7_main_arg3 m _ c))
theorem E2_arg4 (c : Dev nD) : E2 m c main_arg4 = m ((c : Thread nD τ).loc main_arg4) :=
  (congrFun (V6_eq m c) _).symm.trans ((V7_of m _ c _ (by decide)).symm.trans (V7_main_arg4 m _ c))
theorem E2_arg5 (c : Dev nD) : E2 m c main_arg5 = m ((c : Thread nD τ).loc main_arg5) :=
  (congrFun (V6_eq m c) _).symm.trans ((V7_of m _ c _ (by decide)).symm.trans (V7_main_arg5 m _ c))

def pdats : (p : Fin 3) → (c : Dev nD) → Dat τ (Elt F) Unit ℕ (UR sig nD τ) ℕ (cfgs p) c
  | ⟨0, _⟩ => Fr.dat0 (E0 m)
  | ⟨1, _⟩ => Fr.dat1 (E1 m)
  | ⟨2, _⟩ => Fr.dat2 (E2 m)

def reg0 : Pipeline.RegionSeg (pcfgs (F := F)) adm (pdats m) () defs₀ 𝒱₀ L lv 0 :=
  reg launch0 (pdats m) (V3 m) (V4 m (outs m)) 3 (by decide) (fun c w => Fr.A_eq0 _ c w) (V4_eq m)
    (fun _ _ => rfl) (fun _ _ => rfl) (fun c => Fr.body_obligation0 _ c) (fun c => Fr.Phi0_zero _ c) (fun c => Fr.Phi0_last _ c) fun _ => rfl

def reg1 : Pipeline.RegionSeg (pcfgs (F := F)) adm (pdats m) () defs₀ 𝒱₀ L lv 1 :=
  reg launch1 (pdats m) (V4 m (outs m)) (V5 m (outs m)) 2 (by decide)
    (fun c w => (Fr.A_eq1 _ c w).trans (congrFun (V4_eq m c).symm _))
    (fun c => congrArg (Function.update (V4 m (outs m) c) (Proc.devRef .tc main_v40)) (outs_5 m c))
    (fun _ _ => rfl) (fun _ _ => rfl) (fun c => Fr.body_obligation1 _ c) (fun c => Fr.Phi1_zero _ c) (fun c => Fr.Phi1_last _ c) fun _ => rfl

def reg2 : Pipeline.RegionSeg (pcfgs (F := F)) adm (pdats m) () defs₀ 𝒱₀ L lv 2 :=
  reg launch2 (pdats m) (V6 m (outs m)) (V7 m (outs m)) 5 (by decide)
    (fun c w => (Fr.A_eq2 _ c w).trans (congrFun (V6_eq m c).symm _))
    (fun c => congrArg (Function.update (V6 m (outs m) c) (Proc.devRef .tc main_v43)) (outs_7 m c))
    (fun _ _ => rfl) (fun _ _ => rfl) (fun c => Fr.body_obligation2 _ c) (fun _ => rfl) (fun _ => .rfl) fun _ => rfl

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m)
    (O₀ := 0) (G := fun _ => iprop(emp)) (u₀ := u₀)
    (hu₀ := launch_own (F := F)) (E := fun _ c => R c) (hE0 := launch_rest ρ) (hE3 := fun c => rest_owes c)
    (reg0 m) (fun c => .rfl) (fun c => .rfl) (reg1 m) (fun c => .rfl) (fun c => .rfl) (reg2 m) (fun c => .rfl) (fun c => .rfl)

end Cert.Kernel.Seg

end
-- ==== Proof.R0Runs.lean ====
import proofs.«413077_j6382321402034_1_alg».proof.Proof.Gen.KernelIdeal.Launch
import proofs.«413077_j6382321402034_1_alg».proof.Proof.Gen.KernelIdeal.Skeleton
import proofs.«413077_j6382321402034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1

theorem hcond0_1 : ∀ t : Fin cfg0.N, cond0_1 (grid0.coords t) ↔ t.val % 49 = 48 :=
  (by decide +kernel : ∀ t : Fin grid0.N, cond0_1 (grid0.coords t) ↔ t.val % 49 = 48)

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

abbrev VO0_3 : View sig .tc .vmem S8192x128 .bf16 := (Memref.whole cc0_stg3_0 : Memref sig .tc .vmem S8192x128 .bf16).view

abbrev ms0_0 (t : Fin cfg0.N) : Memref sig .tc .vmem S8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .bf16 := win0_3.stage (cfg0.slots t 3)
abbrev hs0_3 (t : Fin cfg0.N) : (ms0_3 t).IsWhole := hstage0_3 ((cfg0.slots t 3).cast nbuf0_3)

abbrev scM0_0 : Memref sig .tc .vmem S8192x128 .f32 := Memref.whole cc0_scratch0

abbrev VS0_0 : View sig .tc .vmem S8192x128 .f32 := scM0_0.view

end Cert.KernelIdeal.Fr

end
-- ==== Proof.R0RunA.lean ====
import proofs.«413077_j6382321402034_1_alg».proof.Proof.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A whole buffer that reads as `x` holds exactly the contents that read back as `x`.
theorem owns_isWhole {sp : Space} {sh : Shape} {e : EltTy} (c : Dev nD) (a : Memref sig .tc sp sh e) (ha : a.IsWhole) (x : Vec F sh e) :
    (owns (c : Thread nD τ) a fullShare x : sProp 𝕄) = (a.view.loc (c : Thread nD τ) ↦[a.view.set]{fullShare} ha.unread x) :=
  equiv_iff.mp ⟨by
    show (_ : sProp 𝕄) ⊢ _; unfold owns; iintro ⟨%f, %hf, H⟩; obtain rfl := ha.eq_unread hf; iexact H, by
    show (_ : sProp 𝕄) ⊢ _; unfold owns; iintro H; iexists _; isplitr; · ipureintro; exact ha.read_unread _
    iexact H⟩

noncomputable def kernelRun0_A (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : cond0_0 i) (hc1 : ¬cond0_1 i)
    (x0 : Vec F S8192 .i32) (x1 : Vec F S8192 .f32) (x2 : Vec F S1024x128 .bf16) :
    Σ' (L3 : List (View.Piece (Elt F) S8192x128 .bf16)), { LS0 : List (View.Piece (Elt F) S8192x128 .f32) //
      ∀ (xi3 : Vec F S8192x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    rw [owns_isWhole c arg2 harg2, owns_isWhole c arg3 harg3, owns_isWhole c arg4 harg4, owns_isWhole c arg5 harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.KernelIdeal.Fr

end
-- ==== Proof.R0RunB.lean ====
import proofs.«413077_j6382321402034_1_alg».proof.Proof.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def kernelRun0_B (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : ¬cond0_0 i) (hc1 : ¬cond0_1 i)
    (x0 : Vec F S8192 .i32) (x1 : Vec F S8192 .f32) (x2 : Vec F S1024x128 .bf16) (xs0 : Vec F S8192x128 .f32) :
    Σ' (L3 : List (View.Piece (Elt F) S8192x128 .bf16)), { LS0 : List (View.Piece (Elt F) S8192x128 .f32) //
      ∀ (xi3 : Vec F S8192x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    rw [owns_isWhole c arg2 harg2, owns_isWhole c arg3 harg3, owns_isWhole c arg4 harg4, owns_isWhole c arg5 harg5, owns_isWhole c arg6 harg6]
    iintro ⟨H0, H1, H2, H3, HS0, Hk⟩
    sl_exec (disch := first | exact hc0 | exact hc1)
    sl_step
    iapply Hk
    iframe H0 H1 H2 H3
    iexists _; iexact HS0

end Cert.KernelIdeal.Fr

end
-- ==== Proof.R0RunC.lean ====
import proofs.«413077_j6382321402034_1_alg».proof.Proof.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def kernelRun0_C (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (hc0 : ¬cond0_0 i) (hc1 : cond0_1 i)
    (x0 : Vec F S8192 .i32) (x1 : Vec F S8192 .f32) (x2 : Vec F S1024x128 .bf16) (xs0 : Vec F S8192x128 .f32) :
    Σ' (L3 : List (View.Piece (Elt F) S8192x128 .bf16)), { LS0 : List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    rw [owns_isWhole c arg2 harg2, owns_isWhole c arg3 harg3, owns_isWhole c arg4 harg4, owns_isWhole c arg6 harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Fr

end
-- ==== Proof.R0Frame.lean ====
import proofs.«413077_j6382321402034_1_alg».proof.Proof.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S8192 .i32) (harg2 : arg2.IsWhole) (arg3 : Memref sig .tc .vmem S8192 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole)

section
variable (hc0 : cond0_0 i) (hc1 : ¬cond0_1 i) (x0 : Vec F S8192 .i32) (x1 : Vec F S8192 .f32) (x2 : Vec F S1024x128 .bf16)

theorem scover0_A_0 (y : S8192x128.Idx) : ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8192x128.size (by sl_kernel_rfl) y

def sout0_A_0 : Vec F S8192x128 .f32 :=
  VS0_0.read (Elt F) (VS0_0.writes (Elt F) VS0_0.junk (kernelRun0_A c i arg2 harg2 arg3 harg3 arg4 harg4 arg5 harg5 arg6 harg6 hc0 hc1 x0 x1 x2).2.1)

end

section
variable (hc0 : ¬cond0_0 i) (hc1 : ¬cond0_1 i) (x0 : Vec F S8192 .i32) (x1 : Vec F S8192 .f32) (x2 : Vec F S1024x128 .bf16) (xs0 : Vec F S8192x128 .f32)

theorem scover0_B_0 (y : S8192x128.Idx) : ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S8192x128.size (by sl_kernel_rfl) y

def sout0_B_0 : Vec F S8192x128 .f32 :=
  VS0_0.read (Elt F) (VS0_0.writes (Elt F) VS0_0.junk (kernelRun0_B c i arg2 harg2 arg3 harg3 arg4 harg4 arg5 harg5 arg6 harg6 hc0 hc1 x0 x1 x2 xs0).2.1)

end

section
variable (hc0 : ¬cond0_0 i) (hc1 : cond0_1 i) (x0 : Vec F S8192 .i32) (x1 : Vec F S8192 .f32) (x2 : Vec F S1024x128 .bf16) (xs0 : Vec F S8192x128 .f32)

theorem cover0_C_3 (y : S8192x128.Idx) : ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8192x128.size (by sl_kernel_rfl) y

def out0_C_3 : Vec F S8192x128 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (y : S8192x128.Idx) : ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8192x128.size (by sl_kernel_rfl) y

def sout0_C_0 : Vec F S8192x128 .f32 :=
  VS0_0.read (Elt F) (VS0_0.writes (Elt F) VS0_0.junk (kernelRun0_C c i arg2 harg2 arg3 harg3 arg4 harg4 arg5 harg5 arg6 harg6 hc0 hc1 x0 x1 x2 xs0).2.1)

end

end

def step0 (c : Dev nD) (t : Fin cfg0.N) (p : Vec F S8192x128 .f32) : Vec F S8192x128 .bf16 × Vec F S8192x128 .f32 :=
  if h0 : t.val % 49 = 0 then
    (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => by have := (hcond0_1 t).mp h; omega) (iblk0 V c 0 t) (iblk0 V c 1 t) (iblk0 V c 2 t))
  else if h1 : t.val % 49 = 48 then
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) p, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) p)
  else
    (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) p)

def outsAt0 (c : Dev nD) : (n : ℕ) → n < cfg0.N → Vec F S8192x128 .bf16 × Vec F S8192x128 .f32
  | 0, hn => step0 V c ⟨0, hn⟩ (VS0_0.read (Elt F) VS0_0.junk)
  | n + 1, hn => step0 V c ⟨n + 1, hn⟩ (outsAt0 c n (Nat.lt_of_succ_lt hn)).2

theorem outsAt0_A (c : Dev nD) (t : Fin cfg0.N) (h0 : t.val % 49 = 0) (h1 : ¬t.val % 49 = 48) :
    outsAt0 V c t.val t.isLt = (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨_ | n, hn⟩ := t <;> (show step0 V c _ _ = _; exact dif_pos h0)

theorem outsAt0_B (c : Dev nD) (t : Fin cfg0.N) (h0 : ¬t.val % 49 = 0) (h1 : ¬t.val % 49 = 48) :
    outsAt0 V c t.val t.isLt = (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨_ | n, hn⟩ := t
  · exact absurd (Nat.zero_mod _) h0
  · exact (dif_neg h0).trans (dif_neg h1)

theorem outsAt0_C (c : Dev nD) (t : Fin cfg0.N) (h0 : ¬t.val % 49 = 0) (h1 : t.val % 49 = 48) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨_ | n, hn⟩ := t
  · exact absurd (Nat.zero_mod _) h0
  · exact (dif_neg h0).trans (dif_pos h1)

theorem PhiA0_ex (c : Dev nD) : ∃ R : sProp 𝕄, (Pipeline.ΦA spec0 c : sProp 𝕄) = iprop(iprop((∃ d, owns (c : Thread nD τ) scM0_0 fullShare d) ∗ R) ∗ (∃ r, prngReg c r)) :=
  ⟨_, by unfold Pipeline.ΦA; rw [scopedRest0_eq]; simp only [scM0_0, owns_whole]; rfl⟩

def rest0 (c : Dev nD) : sProp 𝕄 := (PhiA0_ex (F := F) c).choose

theorem PhiA0_split (c : Dev nD) :
    (Pipeline.ΦA spec0 c : sProp 𝕄) = iprop(iprop((∃ d, owns (c : Thread nD τ) scM0_0 fullShare d) ∗ rest0 (F := F) c) ∗ (∃ r, prngReg c r)) :=
  (PhiA0_ex (F := F) c).choose_spec

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

theorem PhiS0_out (c : Dev nD) : ∀ n h, PhiS0 V c n h ⊢ iprop(iprop((∃ d, owns (c : Thread nD τ) scM0_0 fullShare d) ∗ rest0 (F := F) c) ∗ (∃ r, prngReg c r))
  | 0, _ => .of_eq (PhiA0_split c)
  | _ + 1, _ => sep_mono_l (sep_mono_l (exists_intro (Φ := fun d => owns (c : Thread nD τ) scM0_0 fullShare d) _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem leaves0 (c : Dev nD) (w : Fin cfg0.W) (t : Fin cfg0.N) {X} (h : cfg0.idle w (grid0.coords t) = false) (hX : (dat0 V c).after w t = X) :
    (dat0 V c).leavesExact w t = owns (c : Thread nD τ) ((cfg0.win w).stage (cfg0.slots t w)) fullShare X := by
  subst hX; unfold Dat.leavesExact; rw [h]

/-- A buffer held after writes that cover its whole shape is owned at the contents those writes leave. -/
theorem owns_of_writes {s : Shape} {e : EltTy} (c : Dev nD) (m : Memref sig .tc .vmem s e) (v : View sig .tc .vmem s e) (f') (L : List (View.Piece (Elt F) s e))
    (h : ∀ y, ∃ p ∈ L, y ∈ p.1.set) :
    (iprop(∃ f, m.view.loc (c : Thread nD τ) ↦[m.view.set]{fullShare} m.view.writes (Elt F) f L) : sProp 𝕄) ⊢ owns (c : Thread nD τ) m fullShare (v.read (Elt F) (v.writes (Elt F) f' L)) := by
  iintro ⟨%f, H⟩
  unfold owns; iexists _; isplitr
  swap; · iexact H
  ipureintro; exact View.read_writes_of_cover _ _ _ _ _ h

/-- One step of the loop invariant: the body's run is framed by the rest of the invariant, and what it leaves is re-read as the next invariant. -/
theorem body_step {α0 α1 α2 α3 : Type} {c : Dev nD} {Φ S Sn R G Ho P0 P1 P2 Qs L3 : sProp 𝕄} {P3 P3' Q3 : α3 → sProp 𝕄} {e : Prog (TpuEff nD τ sig (Elt F) Λ₀ .tc) PUnit}
    (hΦ : Φ ⊢ iprop(iprop(S ∗ R) ∗ G)) (h3 : ∀ d, P3 d ⊢ P3' d) (hq3 : ∀ d, Q3 d ⊢ L3) (hqs : Qs ⊢ Sn)
    (run : ∀ d K, iprop(P0 ∗ P1 ∗ P2 ∗ P3' d ∗ S ∗ (iprop(P0 ∗ P1 ∗ P2 ∗ Q3 d ∗ Qs) -∗ K ⟨⟩)) ⊢ wp frame (wpE (defs₀ (F := F)) Variants.none c none) Set.univ e K) :
    iprop(Φ ∗ Ho ∗ (∃ _a : α0, P0) ∗ (∃ _a : α1, P1) ∗ (∃ _a : α2, P2) ∗ (∃ d, P3 d))
      ⊢ wp frame (wpE (defs₀ (F := F)) Variants.none c none) Set.univ e (fun _ => iprop(iprop(iprop(Sn ∗ R) ∗ G) ∗ Ho ∗ P0 ∗ P1 ∗ P2 ∗ L3)) := by
  iintro ⟨HΦ, Ho, ⟨%_, H0⟩, ⟨%_, H1⟩, ⟨%_, H2⟩, ⟨%d, H3⟩⟩
  ihave ⟨⟨HS, Hr⟩, Hg⟩ := hΦ $$ HΦ
  iapply run d
  iframe H0 H1 H2 HS
  isplitl [H3]; · iapply h3; iexact H3
  iintro ⟨H0, H1, H2, H3, HS⟩
  iframe Hr Hg Ho H0 H1 H2
  isplitl [HS]; · iapply hqs; iexact HS
  iapply hq3; iexact H3

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = iprop(iprop(owns (c : Thread nD τ) scM0_0 fullShare ((outsAt0 V c t.val t.isLt).2) ∗ rest0 (F := F) c) ∗ (∃ r, prngReg c r)) from rfl,
    show (dat0 V c).Φ t.castSucc = PhiS0 V c t.val (Nat.le_of_lt t.isLt) from rfl,
    leaves0 V c 0 t (X := iblk0 V c 0 t) rfl rfl, leaves0 V c 1 t (X := iblk0 V c 1 t) rfl rfl, leaves0 V c 2 t (X := iblk0 V c 2 t) rfl rfl]
  by_cases h1 : t.val % 49 = 48
  · have h0 : ¬t.val % 49 = 0 := by omega
    rw [PhiS0_pos V c _ _ (fun e => h0 (by rw [e])), leaves0 V c 3 t (liveAt0_3 t ((hcond0_1 t).mpr h1)) (after0_3 V c t), outsAt0_C V c t h0 h1]
    unfold out0_C_3 sout0_C_0; dsimp only
    refine body_step .rfl ?_ ?_ ?_ fun d K => (kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ K
    exacts [fun _ => by iintro H; iexists _; iexact H, fun _ => owns_of_writes c _ VO0_3 _ _ (cover0_C_3 c _ _ _ _ _ _ _ _ _ _ _ _ _ _ _ _ _), owns_of_writes c _ VS0_0 _ _ (scover0_C_0 c _ _ _ _ _ _ _ _ _ _ _ _ _ _ _ _ _)]
  · rw [Dat.leavesExact_idle (dat0 V c) 3 t (idleAt0_3 t (fun h => h1 ((hcond0_1 t).mp h))) (noFlush0_3 t (fun h => h1 ((hcond0_1 t).mp h)))]
    by_cases h0 : t.val % 49 = 0
    · rw [outsAt0_A V c t h0 h1]
      unfold sout0_A_0; dsimp only
      refine body_step ?_ ?_ ?_ ?_ fun d K => (kernelRun0_A c (grid0.coords t) _ _ _ _ _ _ _ _ _ _ ((hcond0_0 t).mpr h0) (fun h => h1 ((hcond0_1 t).mp h)) (iblk0 V c 0 t) (iblk0 V c 1 t) (iblk0 V c 2 t)).2.2 ((dat0 V c).before 3 t d) Set.univ K
      exacts [PhiS0_out V c _ _, fun _ => .rfl, fun _ => by iintro H; iexists _; iexact H, owns_of_writes c _ VS0_0 _ _ (scover0_A_0 c _ _ _ _ _ _ _ _ _ _ _ _ _ _ _ _)]
    · rw [PhiS0_pos V c _ _ (fun e => h0 (by rw [e])), outsAt0_B V c t h0 h1]
      unfold sout0_B_0; dsimp only
      refine body_step .rfl ?_ ?_ ?_ fun d K => (kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 ((dat0 V c).before 3 t d) Set.univ K
      exacts [fun _ => .rfl, fun _ => by iintro H; iexists _; iexact H, owns_of_writes c _ VS0_0 _ _ (scover0_B_0 c _ _ _ _ _ _ _ _ _ _ _ _ _ _ _ _ _)]

theorem body_obligation0 (c : Dev nD) : BodyObligation (dat0 (F := F) V c) (defs₀ (F := F)) Variants.none () Set.univ := fun t => by
  rw [bigSep_W0, bigSep_W0]
  exact sound_body0 V c t

theorem Phi0_zero (c : Dev nD) : (dat0 V c).Φ 0 = Pipeline.ΦA spec0 c := rfl

theorem Phi0_last (c : Dev nD) : (dat0 V c).Φ (Fin.last cfg0.N) ⊢ Pipeline.ΦA spec0 c :=
  (PhiS0_out V c (Fin.last cfg0.N).val (Nat.le_of_lt_succ (Fin.last cfg0.N).isLt)).trans (.of_eq (PhiA0_split c).symm)

end Cert.KernelIdeal.Fr

end
-- ==== Proof.R1Runs.lean ====
import proofs.«413077_j6382321402034_1_alg».proof.Proof.Gen.KernelIdeal.Launch
import proofs.«413077_j6382321402034_1_alg».proof.Proof.Gen.KernelIdeal.Skeleton
import proofs.«413077_j6382321402034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 104 = 0 :=
  (by decide +kernel : ∀ t : Fin grid1.N, cond1_0 (grid1.coords t) ↔ t.val % 104 = 0)

abbrev cond1_1 (i : grid1.Coords) : Prop := k1_cond2 i = 1#1

theorem hcond1_1 : ∀ t : Fin cfg1.N, cond1_1 (grid1.coords t) ↔ t.val % 104 = 103 :=
  (by decide +kernel : ∀ t : Fin grid1.N, cond1_1 (grid1.coords t) ↔ t.val % 104 = 103)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

theorem liveAt1_2 : ∀ t : Fin cfg1.N, cond1_1 (grid1.coords t) → cfg1.idle 2 (grid1.coords t) = false := by decide +kernel

abbrev VO1_2 : View sig .tc .vmem S1024x128 .f32 := (Memref.whole cc1_stg2_0 : Memref sig .tc .vmem S1024x128 .f32).view

abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

abbrev scM1_0 : Memref sig .tc .vmem S1024x128 .f32 := Memref.whole cc1_scratch0

abbrev VS1_0 : View sig .tc .vmem S1024x128 .f32 := scM1_0.view

def Rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

-- The region's invariant splits into its own scratch, whole at some contents, and a remainder.
theorem PhiA1_iff (c : Dev nD) :
    (Pipeline.ΦA spec1 c : sProp 𝕄) ⊣⊢ iprop((∃ d, owns (c : Thread nD τ) scM1_0 fullShare d) ∗ Rest1 (F := F) c) := by
  unfold Pipeline.ΦA Rest1
  rw [Pipeline.scopedRest_split_of_list spec1 c [cc1_scratch0] (by decide) (by decide)]
  simp only [scM1_0, owns_whole]
  exact sep_assoc

theorem PhiA1_split (c : Dev nD) :
    (Pipeline.ΦA spec1 c : sProp 𝕄) ⊢ iprop((∃ d, owns (c : Thread nD τ) scM1_0 fullShare d) ∗ Rest1 (F := F) c) :=
  (PhiA1_iff c).1

theorem PhiA1_join (c : Dev nD) :
    iprop((∃ d, owns (c : Thread nD τ) scM1_0 fullShare d) ∗ Rest1 (F := F) c) ⊢ (Pipeline.ΦA spec1 c : sProp 𝕄) :=
  (PhiA1_iff c).2

end Cert.KernelIdeal.Fr

end
-- ==== Proof.R1RunA.lean ====
import proofs.«413077_j6382321402034_1_alg».proof.Proof.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

noncomputable def kernelRun1_A (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S8192 .i32) (x1 : Vec F S8192x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.R1RunB.lean ====
import proofs.«413077_j6382321402034_1_alg».proof.Proof.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

noncomputable def kernelRun1_B (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S8192 .i32) (x1 : Vec F S8192x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.R1RunC.lean ====
import proofs.«413077_j6382321402034_1_alg».proof.Proof.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

noncomputable def kernelRun1_C (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S8192 .i32) (x1 : Vec F S8192x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.R1Frame.lean ====
import proofs.«413077_j6382321402034_1_alg».proof.Proof.R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S8192 .i32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole)

section
variable (hc0 : cond1_0 i) (hc1 : ¬cond1_1 i) (x0 : Vec F S8192 .i32) (x1 : Vec F S8192x128 .bf16)

theorem scover1_A_0 (y : S1024x128.Idx) : ∃ pc ∈ (kernelRun1_A c i arg2 harg2 arg3 harg3 arg4 harg4 arg5 harg5 hc0 hc1 x0 x1).2.1, y ∈ pc.1.set :=
  View.cover_of_tiledL _ S1024x128.size (by sl_kernel_rfl) y

def sout1_A_0 : Vec F S1024x128 .f32 :=
  VS1_0.read (Elt F) (VS1_0.writes (Elt F) VS1_0.junk (kernelRun1_A c i arg2 harg2 arg3 harg3 arg4 harg4 arg5 harg5 hc0 hc1 x0 x1).2.1)

end

section
variable (hc0 : ¬cond1_0 i) (hc1 : ¬cond1_1 i) (x0 : Vec F S8192 .i32) (x1 : Vec F S8192x128 .bf16) (xs0 : Vec F S1024x128 .f32)

theorem scover1_B_0 (y : S1024x128.Idx) : ∃ pc ∈ (kernelRun1_B c i arg2 harg2 arg3 harg3 arg4 harg4 arg5 harg5 hc0 hc1 x0 x1 xs0).2.1, y ∈ pc.1.set :=
  View.cover_of_tiledL _ S1024x128.size (by sl_kernel_rfl) y

def sout1_B_0 : Vec F S1024x128 .f32 :=
  VS1_0.read (Elt F) (VS1_0.writes (Elt F) VS1_0.junk (kernelRun1_B c i arg2 harg2 arg3 harg3 arg4 harg4 arg5 harg5 hc0 hc1 x0 x1 xs0).2.1)

end

section
variable (hc0 : ¬cond1_0 i) (hc1 : cond1_1 i) (x0 : Vec F S8192 .i32) (x1 : Vec F S8192x128 .bf16) (xs0 : Vec F S1024x128 .f32)

theorem cover1_C_2 (y : S1024x128.Idx) : ∃ pc ∈ (kernelRun1_C c i arg2 harg2 arg3 harg3 arg4 harg4 arg5 harg5 hc0 hc1 x0 x1 xs0).1, y ∈ pc.1.set :=
  View.cover_of_tiledL _ S1024x128.size (by sl_kernel_rfl) y

def out1_C_2 : Vec F S1024x128 .f32 :=
  VO1_2.read (Elt F) (VO1_2.writes (Elt F) VO1_2.junk (kernelRun1_C c i arg2 harg2 arg3 harg3 arg4 harg4 arg5 harg5 hc0 hc1 x0 x1 xs0).1)

theorem scover1_C_0 (y : S1024x128.Idx) : ∃ pc ∈ (kernelRun1_C c i arg2 harg2 arg3 harg3 arg4 harg4 arg5 harg5 hc0 hc1 x0 x1 xs0).2.1, y ∈ pc.1.set :=
  View.cover_of_tiledL _ S1024x128.size (by sl_kernel_rfl) y

def sout1_C_0 : Vec F S1024x128 .f32 :=
  VS1_0.read (Elt F) (VS1_0.writes (Elt F) VS1_0.junk (kernelRun1_C c i arg2 harg2 arg3 harg3 arg4 harg4 arg5 harg5 hc0 hc1 x0 x1 xs0).2.1)

end

end

abbrev idle1 : Vec F S1024x128 .f32 := VO1_2.read (Elt F) VO1_2.junk

-- One step of the running sum, from what the scratch held before it.
def step1 (c : Dev nD) (t : Fin cfg1.N) (xs : Vec F S1024x128 .f32) : Vec F S1024x128 .f32 × Vec F S1024x128 .f32 :=
  if h0 : t.val % 104 = 0 then
    (idle1, sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))
  else if h1 : t.val % 104 = 103 then
    (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)
  else
    (idle1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)

def outsAt1 (c : Dev nD) : (n : ℕ) → n < cfg1.N → Vec F S1024x128 .f32 × Vec F S1024x128 .f32
  | 0, hn => step1 V c ⟨0, hn⟩ idle1
  | n + 1, hn => step1 V c ⟨n + 1, hn⟩ (outsAt1 c n (Nat.lt_of_succ_lt hn)).2

theorem outsAt1_A (c : Dev nD) (t : Fin cfg1.N) (h0 : t.val % 104 = 0) (h1 : ¬t.val % 104 = 103) :
    outsAt1 V c t.val t.isLt = (idle1, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 104 = 0) (h1 : ¬t.val % 104 = 103) :
    outsAt1 V c t.val t.isLt = (idle1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 104 = 0) (h1 : t.val % 104 = 103) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ Rest1 (F := F) c)

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ Rest1 (F := F) c) := by
  cases n with
  | zero => exact absurd rfl hz
  | succ n => rfl

-- At every point the invariant yields the scratch, whole at some contents, and the remainder.
theorem PhiS1_open (c : Dev nD) (n : ℕ) (h : n ≤ cfg1.N) :
    PhiS1 V c n h ⊢ iprop((∃ d, owns (c : Thread nD τ) scM1_0 fullShare d) ∗ Rest1 (F := F) c) := by
  cases n with
  | zero => exact PhiA1_split c
  | succ n => rw [PhiS1_pos V c _ h n.succ_ne_zero]; iintro ⟨HS, Hg⟩; iframe Hg; iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem Phi1_zero (c : Dev nD) : (dat1 V c).Φ 0 = Pipeline.ΦA spec1 c := rfl

theorem Phi1_last (c : Dev nD) : (dat1 V c).Φ (Fin.last cfg1.N) ⊢ Pipeline.ΦA spec1 c :=
  (PhiS1_open V c (Fin.last cfg1.N).val (Nat.le_of_lt_succ (Fin.last _).isLt)).trans (PhiA1_join c)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

-- A buffer written piece by piece, the pieces covering its shape, holds what reading the pieces back gives.
theorem owns_of_cover {c : Dev nD} (v' : View sig .tc .vmem S1024x128 .f32) (m : Memref sig .tc .vmem S1024x128 .f32)
    (L : List (View.Piece (Elt F) S1024x128 .f32)) (h : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v'.read (Elt F) (v'.writes (Elt F) v'.junk L)) := by
  iintro ⟨%f, H⟩
  unfold owns; iexists _; isplitr
  swap; · iexact H
  ipureintro; exact View.read_writes_of_cover _ _ _ _ _ h

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = iprop(owns (c : Thread nD τ) scM1_0 fullShare (outsAt1 V c t.val t.isLt).2 ∗ Rest1 (F := F) c) from rfl, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h1 : t.val % 104 = 103
  · have h0 : ¬t.val % 104 = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1, PhiS1_pos V c _ _ (fun e => h0 (by rw [e]))]
    unfold out1_C_2 sout1_C_0; (try dsimp only)
    iintro ⟨⟨HS0, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    iframe H0 H1 HS0
    isplitl [H2]; · iexists _; iexact H2
    iintro ⟨H0, H1, H2, HS0⟩
    iframe Hg Ho H0 H1
    isplitl [HS0]
    · iapply (owns_of_cover VS1_0 scM1_0 _ (scover1_C_0 c _ _ _ _ _ _ _ _ _ _ _ _ _ _)); iexact HS0
    iapply (owns_of_cover VO1_2 (ms1_2 t) _ (cover1_C_2 c _ _ _ _ _ _ _ _ _ _ _ _ _ _)); iexact H2
  · rw [Dat.leavesExact_idle (dat1 V c) 2 t (idleAt1_2 t (fun h => h1 ((hcond1_1 t).mp h))) (noFlush1_2 t (fun h => h1 ((hcond1_1 t).mp h)))]
    by_cases h0 : t.val % 104 = 0
    · rw [outsAt1_A V c t h0 h1]
      unfold sout1_A_0; (try dsimp only)
      iintro ⟨HP, Ho, ⟨%d0, H0⟩, ⟨%d1, H1⟩, ⟨%d2, H2⟩⟩
      icases (PhiS1_open V c _ _) $$ HP with ⟨HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      iframe H0 H1 H2 HS0
      iintro ⟨H0, H1, H2, HS0⟩
      iframe Hg Ho H0 H1
      isplitl [HS0]
      · iapply (owns_of_cover VS1_0 scM1_0 _ (scover1_A_0 c _ _ _ _ _ _ _ _ _ _ _ _ _)); iexact HS0
      iexists _; iexact H2
    · rw [outsAt1_B V c t h0 h1, PhiS1_pos V c _ _ (fun e => h0 (by rw [e]))]
      unfold sout1_B_0; (try dsimp only)
      iintro ⟨⟨HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      iframe H0 H1 H2 HS0
      iintro ⟨H0, H1, H2, HS0⟩
      iframe Hg Ho H0 H1
      isplitl [HS0]
      · iapply (owns_of_cover VS1_0 scM1_0 _ (scover1_B_0 c _ _ _ _ _ _ _ _ _ _ _ _ _ _)); iexact HS0
      iexists _; iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.R2Frame.lean ====
import proofs.«413077_j6382321402034_1_alg».proof.Proof.Gen.KernelIdeal.Launch
import proofs.«413077_j6382321402034_1_alg».proof.Proof.Gen.KernelIdeal.Skeleton
import proofs.«413077_j6382321402034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem xsize2_0 : ∀ (t : Fin grid2.N) (a : Fin 2), win2_0.xsize (grid2.coords t) a = S5000x128.size a := by decide +kernel

theorem moved2_0 (t : Fin grid2.N) (j : S5000x128.Idx) : win2_0.moved (grid2.coords t) j = true :=
  (win2_0.moved_iff (grid2.coords t) j).mpr fun a => by rw [xsize2_0 t a]; exact (j a).isLt

theorem fill2_0 (t : Fin grid2.N) (d d' : S5000x128.Idx → Elt F .f32) (g : (win2_0.xblock (grid2.coords t)).Idx → Elt F .f32) :
    win2_0.fill (grid2.coords t) d g = win2_0.fill (grid2.coords t) d' g := by
  funext j; unfold Window.fill; rw [dif_pos (moved2_0 t j), dif_pos (moved2_0 t j)]

def blk2_0 (c : Dev nD) (t : Fin cfg2.N) : Vec F S5000x128 .f32 :=
  win2_0.fill (grid2.coords t) (fun _ => Scalar.ofBits .f32 0#32) (iblk2 V c 0 t)

theorem blk2_0_apply (c : Dev nD) (t : Fin cfg2.N) (y : S5000x128.Idx) :
    blk2_0 V c t y = iblk2 V c 0 t fun a => ⟨(y a).val, (win2_0.moved_iff (grid2.coords t) y).mp (moved2_0 t y) a⟩ := by
  unfold blk2_0 Window.fill; rw [dif_pos (moved2_0 t y)]

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0

def out2_5 (x0 : Vec F S5000x128 .f32) (x1 : Vec F S128x128 .bf16) (x2 x3 x4 : Vec F S128 .f32) : Vec F S5000x128 .f32 :=
  View.canon [⟨r2_0, k2_pay1 (View.ld x0 r2_0) (View.ld x1 r2_1) (View.ld x2 r2_2) (View.ld x3 r2_2) (View.ld x4 r2_2)⟩]

theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

theorem sound_kernel2 (c : Dev nD) (E : Set ℕ) (i : grid2.Coords)
    (arg1 : Memref sig .tc .vmem S5000x128 .f32) (harg1 : arg1.IsWhole) (arg2 : Memref sig .tc .vmem S128x128 .bf16) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S5000x128 .f32) (harg6 : arg6.IsWhole)
    (x0 : Vec F S5000x128 .f32) (x1 : Vec F S128x128 .bf16) (x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__finalize_kernel i arg1 harg1 arg2 harg2 arg3 harg3 arg4 harg4 arg5 harg5 arg6 harg6) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => blk2_0 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (blk2_0 V c t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = blk2_0 V c t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = iblk2 V c 4 t := rfl
theorem after2_5 (c : Dev nD) (t : Fin cfg2.N) :
    (dat2 V c).after 5 t = out2_5 (blk2_0 V c t) (iblk2 V c 1 t) (iblk2 V c 2 t) (iblk2 V c 3 t) (iblk2 V c 4 t) := by dsimp only [dat2]

theorem before2_0 (c : Dev nD) (t : Fin cfg2.N) (d) : (dat2 V c).before 0 t d = blk2_0 V c t := by
  unfold Dat.before; rw [if_pos (fetch2_0 t)]
  unfold Dat.fetched Dat.blockOf blk2_0 iblk2; rw [A_eq2]
  exact fill2_0 t _ _ _

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2_0 V c t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Segs.lean ====
import proofs.«413077_j6382321402034_1_alg».proof.Proof.Gen.KernelIdeal.Regions
import proofs.«413077_j6382321402034_1_alg».proof.Proof.R0Frame
import proofs.«413077_j6382321402034_1_alg».proof.Proof.R1Frame
import proofs.«413077_j6382321402034_1_alg».proof.Proof.R2Frame

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EntryV (F : FTy → Type) [FloatOps F] : Type :=
  (c : Dev nD) → (b : Ref sig .tc) → Buf (Elt F) ((c : Thread nD τ).loc b)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev u₀ : UR sig nD τ := initOf (Pipeline.cells cfgs cellOf_inj) (Pipeline.launchToks cfgs cellOf_inj)

theorem launch_own : (ownU u₀ : sProp 𝕄)
    ⊢ |={Set.univ}=> iprop(BI.own (emb₁ u₀)
        ∗ bigSep Finset.univ (fun _ : Dev nD => (iprop(emp) : sProp 𝕄))) := by
  iintro Hu; imodintro
  isplitl [Hu]
  · iapply (show (ownU u₀ : sProp 𝕄)
        ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

section Region

variable {p : Fin 3} (lf : Pipeline.LaunchFacts (nD := nD) (τ := τ) cfgs p)
  (pd : (p : Fin 3) → (c : Dev nD) → Dat τ (Elt F) Unit ℕ (UR sig nD τ) ℕ (cfgs p) c)
  (Vi Vo : Dev nD → Valuation τ sig (Elt F)) (wo : Fin (cfgs p).W)
  (hi : ∀ w, w ≠ wo → ((cfgs p).win w).isOut = false)
  (hA : ∀ c w, (pd p c).A w = Vi c (Pipeline.arrRef (cfgs p).spec w))
  (hVo : ∀ c, Vo c = Function.update (Vi c) (Proc.devRef .tc (Pipeline.arrRef (cfgs p).spec wo)) ((pd p c).arrAt wo (cfgs p).N))
  (hs : ∀ c w, (pd p c).q w = fullShare) (hd : ∀ c t, (pd p c).owed t = 0)
  (hb : ∀ c, BodyObligation (pd p c) (defs₀ (F := F)) Variants.none () Set.univ)
  (hz : ∀ c, (pd p c).Φ 0 = Pipeline.ΦA (cfgs p).spec c)
  (hl : ∀ c, (pd p c).Φ (Fin.last (cfgs p).N) ⊢ Pipeline.ΦA (cfgs p).spec c)
  (hr : ∀ c, (pd p c).recorded 0 = Set.univ)

include lf hi hA hVo in
-- Only the output window's array changes: there `Vo` holds the region's result, elsewhere it is `Vi`.
theorem exit_arr (c : Dev nD) (w : Fin (cfgs p).W) :
    (pd p c).arrAt w (cfgs p).N = Vo c (Pipeline.arrRef (cfgs p).spec w) := by
  rw [hVo]
  by_cases h : w = wo
  · subst h; rw [Function.update_self]
  · exact ((pd p c).arrAt_in w (hi w h) _).trans ((hA c w).trans
      (Function.update_of_ne (StableHlo.devRef_ne_of_ne (lf.win.arr_inj.ne h)) _ _).symm)

include hVo in
theorem exit_rest (c : Dev nD) (b : Ref sig .tc) (hb : b ∉ Finset.univ.image (Pipeline.arrRef (cfgs p).spec)) :
    Vo c b = Vi c b := by
  rw [hVo]
  exact Function.update_of_ne (StableHlo.devRef_ne_of_ne fun e => hb (Finset.mem_image.mpr ⟨wo, Finset.mem_univ _, e.symm⟩)) _ _

-- One region's record, stated once for all three: entered at contents `Vi`, left at `Vo`.
def reg : Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hd
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd lf.win lf.arr_whole c
      ((pd p c).share_full (hs c)) (fun b => Vi c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [show (pd p c).owed 0 = 0 from hd c 0]
    icases HO with ⟨%W, HO⟩; iexists W; isplitr
    · ipureintro; exact fun x _ => Or.inl (show x ∈ (pd p c).recorded 0 from by rw [hr]; exact Set.mem_univ x)
    iexact HO
  hin c := by
    rw [show (pd p c).Φ 0 = Pipeline.ΦA (cfgs p).spec c from hz c]; unfold Pipeline.ΦA
    iintro ⟨Hp, -, Hr⟩
    iframe
  hout c := by
    rw [Pipeline.ownSems0_none]
    refine (show (pd p c).Φ (Fin.last _) ⊢ Pipeline.ΦA (cfgs p).spec c from hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hs c)) (fun b => Vi c b) (fun b => Vo c b) ((pd p c).arrAt · (cfgs p).N)
      (exit_arr lf pd Vi Vo wo hi hA hVo c) (exit_rest pd Vi Vo wo hVo c)
    rw [Pipeline.unscopedBufs_held] at hjoin
    unfold Pipeline.Dat.owesAt Pipeline.owesWithin
    rw [show (pd p c).owed (Fin.last _) = 0 from hd c _]
    iintro ⟨Ha, HO, HY, Hrest⟩
    imodintro
    isplitl [Ha Hrest]
    · iapply hjoin; iframe
    isplitl [HY]; · iexact HY
    icases HO with ⟨%W, -, HO⟩; iexists W; iexact HO

end Region

variable (m : (ℓ : Loc nD τ sig) → Buf (Elt F) ℓ)

abbrev E0 : EntryV F := fun c b => V3 m c b

def o4 (c : Dev nD) : Buf (Elt F) ((c : Thread nD τ).loc main_v39) := (Fr.dat0 (E0 m) c).arrAt 3 cfg0.N

def X4 (c : Dev nD) : Valuation τ sig (Elt F) := Function.update (V3 m c) main_v39 (o4 m c)

abbrev E1 : EntryV F := fun c b => X4 m c b

def o5 (c : Dev nD) : Buf (Elt F) ((c : Thread nD τ).loc main_v40) := (Fr.dat1 (E1 m) c).arrAt 2 cfg1.N

def X5 (c : Dev nD) : Valuation τ sig (Elt F) := Function.update (X4 m c) main_v40 (o5 m c)

def X6 (c : Dev nD) : Valuation τ sig (Elt F) := StableHlo.after hostOps2 (X5 m c)

abbrev E2 : EntryV F := fun c b => X6 m c b

def o7 (c : Dev nD) : Buf (Elt F) ((c : Thread nD τ).loc main_v43) := (Fr.dat2 (E2 m) c).arrAt 5 cfg2.N

def X7 (c : Dev nD) : Valuation τ sig (Elt F) := Function.update (X6 m c) main_v43 (o7 m c)

def outs : Outs (F := F) := fun J r c =>
  if J = 4 then X4 m c r else if J = 5 then X5 m c r else X7 m c r

theorem outs_4 (c : Dev nD) : outs m 4 main_v39 c = o4 m c := by
  unfold outs; rw [if_pos rfl]; exact Function.update_self _ _ _
theorem outs_5 (c : Dev nD) : outs m 5 main_v40 c = o5 m c := by
  unfold outs; rw [if_neg (by decide), if_pos rfl]; exact Function.update_self _ _ _
theorem outs_7 (c : Dev nD) : outs m 7 main_v43 c = o7 m c := by
  unfold outs; rw [if_neg (by decide), if_neg (by decide)]; exact Function.update_self _ _ _

theorem V4_eq (c : Dev nD) : V4 m (outs m) c = X4 m c :=
  congrArg (Function.update (V3 m c) (Proc.devRef .tc main_v39)) (outs_4 m c)
theorem V5_eq (c : Dev nD) : V5 m (outs m) c = X5 m c := by
  show Function.update (V4 m (outs m) c) (Proc.devRef .tc main_v40) (outs m 5 main_v40 c) = _
  rw [V4_eq, outs_5]; rfl
theorem V6_eq (c : Dev nD) : V6 m (outs m) c = X6 m c := by
  show StableHlo.after hostOps2 (V5 m (outs m) c) = _
  rw [V5_eq]; rfl

theorem E1_of_ne (c : Dev nD) (b : Ref sig .tc) (h : b ≠ main_v39) : E1 m c b = E0 m c b :=
  Function.update_of_ne (StableHlo.devRef_ne_of_ne h : (Proc.devRef .tc b : DevRef τ sig) ≠ Proc.devRef .tc main_v39) _ _

theorem E1_v39 (c : Dev nD) : E1 m c main_v39 = o4 m c := Function.update_self _ _ _

theorem E2_v40 (c : Dev nD) : E2 m c main_v40 = o5 m c :=
  (StableHlo.after_of_writes_sub hostOps2 _ hostOps2_writes (by decide : main_v40 ∉ hostOps2_W)).trans (Function.update_self _ _ _)

theorem E2_v42 (c : Dev nD) : E2 m c main_v42 = V6 m (outs m) c main_v42 :=
  (congrFun (V6_eq m c) _).symm

theorem E2_arg3 (c : Dev nD) : E2 m c main_arg3 = m ((c : Thread nD τ).loc main_arg3) :=
  (congrFun (V6_eq m c) _).symm.trans ((V7_of m _ c _ (by decide)).symm.trans (V7_main_arg3 m _ c))
theorem E2_arg4 (c : Dev nD) : E2 m c main_arg4 = m ((c : Thread nD τ).loc main_arg4) :=
  (congrFun (V6_eq m c) _).symm.trans ((V7_of m _ c _ (by decide)).symm.trans (V7_main_arg4 m _ c))
theorem E2_arg5 (c : Dev nD) : E2 m c main_arg5 = m ((c : Thread nD τ).loc main_arg5) :=
  (congrFun (V6_eq m c) _).symm.trans ((V7_of m _ c _ (by decide)).symm.trans (V7_main_arg5 m _ c))

def pdats : (p : Fin 3) → (c : Dev nD) → Dat τ (Elt F) Unit ℕ (UR sig nD τ) ℕ (cfgs p) c
  | ⟨0, _⟩ => Fr.dat0 (E0 m)
  | ⟨1, _⟩ => Fr.dat1 (E1 m)
  | ⟨2, _⟩ => Fr.dat2 (E2 m)

def reg0 : Pipeline.RegionSeg (pcfgs (F := F)) adm (pdats m) () defs₀ 𝒱₀ L lv 0 :=
  reg launch0 (pdats m) (V3 m) (V4 m (outs m)) 3 (by decide) (fun c w => Fr.A_eq0 _ c w) (V4_eq m)
    (fun _ _ => rfl) (fun _ _ => rfl) (fun c => Fr.body_obligation0 _ c) (fun c => Fr.Phi0_zero _ c) (fun c => Fr.Phi0_last _ c) fun _ => rfl

def reg1 : Pipeline.RegionSeg (pcfgs (F := F)) adm (pdats m) () defs₀ 𝒱₀ L lv 1 :=
  reg launch1 (pdats m) (V4 m (outs m)) (V5 m (outs m)) 2 (by decide)
    (fun c w => (Fr.A_eq1 _ c w).trans (congrFun (V4_eq m c).symm _))
    (fun c => congrArg (Function.update (V4 m (outs m) c) (Proc.devRef .tc main_v40)) (outs_5 m c))
    (fun _ _ => rfl) (fun _ _ => rfl) (fun c => Fr.body_obligation1 _ c) (fun c => Fr.Phi1_zero _ c) (fun c => Fr.Phi1_last _ c) fun _ => rfl

def reg2 : Pipeline.RegionSeg (pcfgs (F := F)) adm (pdats m) () defs₀ 𝒱₀ L lv 2 :=
  reg launch2 (pdats m) (V6 m (outs m)) (V7 m (outs m)) 5 (by decide)
    (fun c w => (Fr.A_eq2 _ c w).trans (congrFun (V6_eq m c).symm _))
    (fun c => congrArg (Function.update (V6 m (outs m) c) (Proc.devRef .tc main_v43)) (outs_7 m c))
    (fun _ _ => rfl) (fun _ _ => rfl) (fun c => Fr.body_obligation2 _ c) (fun _ => rfl) (fun _ => .rfl) fun _ => rfl

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m)
    (O₀ := 0) (G := fun _ => iprop(emp)) (u₀ := u₀)
    (hu₀ := launch_own (F := F)) (E := fun _ c => R c) (hE0 := launch_rest ρ) (hE3 := fun c => rest_owes c)
    (reg0 m) (fun c => .rfl) (fun c => .rfl) (reg1 m) (fun c => .rfl) (fun c => .rfl) (reg2 m) (fun c => .rfl) (fun c => .rfl)

end Cert.KernelIdeal.Seg

end
-- ==== Proof.SegsVal.lean ====
import proofs.«413077_j6382321402034_1_alg».proof.Proof.Segs
import proofs.«413077_j6382321402034_1_alg».proof.Proof.SegsRun

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.isDefEq.respectTransparency.types false in
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v43) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  simp only [← outs_7 m]
  exact Gen.frame_cond_value m emb₁ () 𝒱₀ L lv (fun _ _ => rfl) ρ (outs m) (pdats m)
    (O₀ := 0) (G := fun _ => iprop(emp)) (u₀ := initOf (Pipeline.cells cfgs cellOf_inj) (Pipeline.launchToks cfgs cellOf_inj))
    (hu₀ := launch_own (F := F)) (E := fun _ c => R c) (hE0 := launch_rest ρ) (hE3 := fun c => rest_owes c)
    (reg0 m) (fun c => .rfl) (fun c => .rfl) (reg1 m) (fun c => .rfl) (fun c => .rfl) (reg2 m) (fun c => .rfl) (fun c => .rfl)

end Cert.KernelIdeal.Seg

end
-- ==== Proof.R0Pieces.lean ====
import proofs.«413077_j6382321402034_1_alg».proof.Proof.R0Frame
import Idealize.ShloMosaic.Lib.Pipeline.Value

noncomputable section

namespace Cert.KernelIdeal.Fr

open Idealize.ShloMosaic Idealize.ShloMosaic.TcCoe Idealize.ShloMosaic.Tactic Idealize.SL.Sem
open Cert.KernelIdeal Cert.KernelIdeal.Gen

theorem hz2 : (![0, 0] : Fin 2 → Nat) = fun _ => 0 := by decide
theorem hz1 : (![0] : Fin 1 → Nat) = fun _ => 0 := by decide

variable {F : FTy → Type} [FloatOps F] (c : Dev nD) (i : grid0.Coords)
  (arg2 : Memref sig .tc .vmem S8192 .i32) (harg2 : arg2.IsWhole) (arg3 : Memref sig .tc .vmem S8192 .f32) (harg3 : arg3.IsWhole)
  (arg4 : Memref sig .tc .vmem S1024x128 .bf16) (harg4 : arg4.IsWhole) (arg5 : Memref sig .tc .vmem S8192x128 .bf16) (harg5 : arg5.IsWhole)
  (arg6 : Memref sig .tc .vmem S8192x128 .f32) (harg6 : arg6.IsWhole)

theorem sout0_A_eq (hc0 : cond0_0 i) (hc1 : ¬cond0_1 i) (x0 : Vec F S8192 .i32) (x1 : Vec F S8192 .f32) (x2 : Vec F S1024x128 .bf16) :
    sout0_A_0 c i arg2 harg2 arg3 harg3 arg4 harg4 arg5 harg5 arg6 harg6 hc0 hc1 x0 x1 x2 = k0_pay2 i x0 (k0_pay1 (F := F)) x2 := by
  unfold sout0_A_0
  rw [View.read_writes_eq_canon _ _ _ fun _ => scover0_A_0 ..]
  unfold kernelRun0_A
  dsimp only
  sl_unfold_words
  rw [View.canon_cons_unit_zero (S := S8192x128) hz2]
  simp only [View.readAt_eq_ld, harg2.read_unread, harg4.read_unread, View.ld_unit_zero (S := S8192) hz1, View.ld_unit_zero (S := S1024x128) hz2, View.readCov_unit_zero (S := S8192x128) _ hz2]

theorem sout0_B_eq (hc0 : ¬cond0_0 i) (hc1 : ¬cond0_1 i) (x0 : Vec F S8192 .i32) (x1 : Vec F S8192 .f32) (x2 : Vec F S1024x128 .bf16) (xs0 : Vec F S8192x128 .f32) :
    sout0_B_0 c i arg2 harg2 arg3 harg3 arg4 harg4 arg5 harg5 arg6 harg6 hc0 hc1 x0 x1 x2 xs0 = k0_pay2 i x0 xs0 x2 := by
  unfold sout0_B_0
  rw [View.read_writes_eq_canon _ _ _ fun _ => scover0_B_0 ..]
  unfold kernelRun0_B
  dsimp only
  sl_unfold_words
  rw [View.canon_unit_zero (S := S8192x128) hz2]
  simp only [View.readAt_eq_ld, harg2.read_unread, harg4.read_unread, harg6.read_unread, View.ld_unit_zero (S := S8192) hz1, View.ld_unit_zero (S := S1024x128) hz2, View.ld_unit_zero (S := S8192x128) hz2]

theorem sout0_C_eq (hc0 : ¬cond0_0 i) (hc1 : cond0_1 i) (x0 : Vec F S8192 .i32) (x1 : Vec F S8192 .f32) (x2 : Vec F S1024x128 .bf16) (xs0 : Vec F S8192x128 .f32) :
    sout0_C_0 c i arg2 harg2 arg3 harg3 arg4 harg4 arg5 harg5 arg6 harg6 hc0 hc1 x0 x1 x2 xs0 = k0_pay2 i x0 xs0 x2 := by
  unfold sout0_C_0
  rw [View.read_writes_eq_canon _ _ _ fun _ => scover0_C_0 ..]
  unfold kernelRun0_C
  dsimp only
  sl_unfold_words
  rw [View.canon_unit_zero (S := S8192x128) hz2]
  simp only [View.readAt_eq_ld, harg2.read_unread, harg4.read_unread, harg6.read_unread, View.ld_unit_zero (S := S8192) hz1, View.ld_unit_zero (S := S1024x128) hz2, View.ld_unit_zero (S := S8192x128) hz2]

theorem out0_C_eq (hc0 : ¬cond0_0 i) (hc1 : cond0_1 i) (x0 : Vec F S8192 .i32) (x1 : Vec F S8192 .f32) (x2 : Vec F S1024x128 .bf16) (xs0 : Vec F S8192x128 .f32) :
    out0_C_3 c i arg2 harg2 arg3 harg3 arg4 harg4 arg5 harg5 arg6 harg6 hc0 hc1 x0 x1 x2 xs0 = k0_pay3 (k0_pay2 i x0 xs0 x2) x1 := by
  unfold out0_C_3
  rw [View.read_writes_eq_canon _ _ _ fun _ => cover0_C_3 ..]
  unfold kernelRun0_C
  dsimp only
  sl_unfold_words
  rw [View.canon_unit_zero (S := S8192x128) hz2]
  simp only [View.readAt_eq_ld, harg2.read_unread, harg3.read_unread, harg4.read_unread, harg6.read_unread, View.ld_unit_zero (S := S8192) hz1, View.ld_unit_zero (S := S1024x128) hz2, View.ld_unit_zero (S := S8192x128) hz2, View.readCov_unit_zero (S := S8192x128) _ hz2]

end Cert.KernelIdeal.Fr

end
-- ==== Proof.Spec.lean ====
import Idealize.ShloMosaic.PureOps.Ideal

noncomputable section

namespace Cert.GcnSpec

open Idealize.ShloMosaic

def hit (a b : BitVec 32) : EReal := if a = b then 1 else 0

def gatherK (src : Fin 851968 → BitVec 32) (nrm : Fin 851968 → EReal) (xp : Fin 50176 → Fin 128 → EReal)
    (e : Fin 851968) (k : Fin 128) : EReal :=
  (∑ r : Fin 50176, hit (src e) (BitVec.ofNat 32 r.val) * xp r k) * nrm e

def scatterK (dst : Fin 851968 → BitVec 32) (msg : Fin 851968 → Fin 128 → EReal)
    (n : Fin 50176) (k : Fin 128) : EReal :=
  ∑ e : Fin 851968, hit (dst e) (BitVec.ofNat 32 n.val) * msg e k

def c128 : EReal := Ideal.ofBits .f32 0x43000000#32
def epsLN : EReal := Ideal.ofBits .f32 0x3727C5AC#32

def relu (h : Fin 128 → EReal) (j : Fin 128) : EReal := max (h j) 0

def mean (r : Fin 128 → EReal) : EReal := Ideal.div (∑ j : Fin 128, r j) c128

def lnRow (r γ β : Fin 128 → EReal) (j : Fin 128) : EReal :=
  (r j - mean r) * Ideal.rsqrt (mean (fun j' => (r j' - mean r) * (r j' - mean r)) + epsLN) * γ j + β j

def lnRelu (h γ β : Fin 128 → EReal) (j : Fin 128) : EReal := lnRow (relu h) γ β j

def finK (agg : Fin 50176 → Fin 128 → EReal) (wt : Fin 128 → Fin 128 → EReal) (b γ β : Fin 128 → EReal)
    (n : Fin 50000) (j : Fin 128) : EReal :=
  lnRelu (fun j' => (∑ k : Fin 128, agg (Fin.castLE (by decide) n) k * wt k j') + b j') γ β j

def refOut (row : Fin 850000 → Fin 50000) (dst : Fin 850000 → BitVec 32) (nrm : Fin 850000 → EReal)
    (x : Fin 50000 → Fin 128 → EReal) (wt : Fin 128 → Fin 128 → EReal) (b γ β : Fin 128 → EReal)
    (n : Fin 50000) (j : Fin 128) : EReal :=
  lnRelu (fun j' =>
    (∑ e ∈ Finset.univ.filter (fun e : Fin 850000 => (dst e).toInt = (n.val : ℤ)),
      (∑ k : Fin 128, x (row e) k * wt k j') * nrm e) + b j') γ β j

def padW (f : Fin 850000 → BitVec 32) (e : Fin 851968) : BitVec 32 :=
  if h : e.val < 850000 then f ⟨e.val, h⟩ else 0#32

def padR (f : Fin 850000 → EReal) (e : Fin 851968) : EReal :=
  if h : e.val < 850000 then f ⟨e.val, h⟩ else 0

def padX (x : Fin 50000 → Fin 128 → EReal) (r : Fin 50176) (k : Fin 128) : EReal :=
  if h : r.val < 50000 then x ⟨r.val, h⟩ k else 0

end Cert.GcnSpec

end
-- ==== Proof.R0Pay.lean ====
import proofs.«413077_j6382321402034_1_alg».proof.Proof.Gen.KernelIdeal.Skeleton
import proofs.«413077_j6382321402034_1_alg».proof.Proof.Spec
import Idealize.ShloMosaic.Lib.ValueLayout
import Idealize.ShloMosaic.Lib.StackMember

noncomputable section

namespace Cert.KernelIdeal.Val0P

open Idealize.ShloMosaic Idealize.ShloMosaic.ValueIdx Idealize.SL.Sem Cert.KernelIdeal Cert.KernelIdeal.Gen Cert.GcnSpec

theorem shapeCast_a_a1_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_apply (e : Fin 8192) (k : Fin 128) : k0_pay1 (F := Ideal) (ix2 e k) = 0 := by
  unfold k0_pay1
  rw [shapeCast_self]
  exact Ideal.ofBits_zero_f32

theorem pay3_apply (v27 : Vec Ideal S8192x128 .f32) (v28 : Vec Ideal S8192 .f32) (e : Fin 8192) (k : Fin 128) :
    k0_pay3 (F := Ideal) v27 v28 (ix2 e k) = v27 (ix2 e k) * v28 (ix1 e) := by
  unfold k0_pay3
  rw [truncf_apply, mulf_apply, broadcastTo_a1_ab_apply, shapeCast_a_a1_apply, shapeCast_self]

theorem word_row (i0 n : ℕ) :
    BitVec.ofNat 32 n + Scalar.muli (BitVec.ofNat 32 i0) 1024#32 = BitVec.ofNat 32 (1024 * i0 + n) := by
  show _ + _ * BitVec.ofNat 32 1024 = _
  rw [← BitVec.ofNat_mul, ← BitVec.ofNat_add, Nat.add_comm, Nat.mul_comm]

theorem sitofp_cmpi_eq (a b : BitVec 32) :
    (FloatOps.sitofp (F := Ideal) .f32 ((IntOp.cmpi .eq a b).setWidth 32) : EReal) = hit a b := by
  show ((((BitVec.ofBool (a == b)).setWidth 32).toInt : ℝ) : EReal) = _
  unfold hit
  by_cases h : a = b
  · subst h; simp
  · rw [if_neg h, show (a == b) = false by simpa using h]; simp

theorem hit_comm (a b : BitVec 32) : hit a b = hit b a := if_congr eq_comm rfl rfl

theorem hit_sub (a o r : BitVec 32) : hit (a - o) r = hit a (r + o) :=
  if_congr ⟨fun h => by rw [← h, BitVec.sub_add_cancel], fun h => by rw [h, BitVec.add_sub_cancel]⟩ rfl rfl

-- An M×K by K×N product into the zero accumulator, read at an entry, is the sum over the contracted coordinate.
theorem matmul_plain_apply {m k n : ℕ} (l : FVec Ideal ⟨2, ![m, k]⟩ .bf16) (r : FVec Ideal ⟨2, ![k, n]⟩ .bf16) (a : Fin m) (b : Fin n) :
    matmul (DotDims.plain m k n) none l r (constant (F := Ideal) ⟨2, ![m, n]⟩ .f32 0x00000000#32) (ix2 a b) = ∑ c : Fin k, l (ix2 a c) * r (ix2 c b) :=
  (Ideal.matmul_constant_zero_apply _ none l r _).trans
    ((Ideal.dotGeneral_apply _ none default l r _).symm.trans (StackMember.dotGeneral_plain_apply none l r a b))

theorem cmpi_apply {s : Shape} {w : ℕ} (p : CmpIPredicate) (x y : IVec s w) (i : s.Idx) : cmpi p x y i = IntOp.cmpi p (x i) (y i) := rfl

theorem subi_apply {s : Shape} {w : ℕ} (x y : IVec s w) (i : s.Idx) : subi x y i = IntOp.subi (x i) (y i) := rfl

theorem pay2_apply (i : grid0.Coords) (v4 : Vec Ideal S8192 .i32) (v16 : Vec Ideal S8192x128 .f32) (v17 : Vec Ideal S1024x128 .bf16)
    (e : Fin 8192) (k : Fin 128) :
    k0_pay2 (F := Ideal) i v4 v16 v17 (ix2 e k)
      = v16 (ix2 e k) + ∑ r : Fin 1024, hit (v4 (ix1 e)) (BitVec.ofNat 32 (1024 * (i 1).val + r.val)) * v17 (ix2 r k) := by
  unfold k0_pay2
  rw [shapeCast_self, addf_apply]
  refine congrArg (v16 (ix2 e k) + ·) ((matmul_plain_apply _ _ e k).trans (Finset.sum_congr rfl fun r _ => ?_))
  rw [truncf_apply, sitofp_apply, extui_apply, cmpi_apply, broadcastTo_a1_ab_apply, broadcastTo_1b_ab_apply, iota_single_apply, subi_apply,
    shapeCast_a_a1_apply, shapeCast_self, sitofp_cmpi_eq, ← word_row, shapeCast_self]
  exact congrArg (· * _) (hit_sub ..)

-- A sum over a·b points is the sum over a blocks of b consecutive points.
theorem sum_blocks {a b N : ℕ} (hN : a * b = N) (f : Fin N → EReal) (hlt : ∀ (j : Fin a) (r : Fin b), b * j.val + r.val < N) :
    (∑ j : Fin a, ∑ r : Fin b, f ⟨b * j.val + r.val, hlt j r⟩) = ∑ q : Fin N, f q := by
  subst hN
  rw [← Fintype.sum_prod_type (f := fun p : Fin a × Fin b => f ⟨b * p.1.val + p.2.val, hlt p.1 p.2⟩)]
  exact Fintype.sum_equiv finProdFinEquiv _ _ fun p => congrArg f (Fin.ext (Nat.add_comm ..))

end Cert.KernelIdeal.Val0P

end
-- ==== Proof.R0Value.lean ====
import proofs.«413077_j6382321402034_1_alg».proof.Proof.R0Pieces
import proofs.«413077_j6382321402034_1_alg».proof.Proof.R0Pay

noncomputable section

namespace Cert.KernelIdeal.Val0

open Idealize.ShloMosaic Idealize.ShloMosaic.TcCoe Idealize.ShloMosaic.ValueIdx Idealize.SL.Sem
open Cert.KernelIdeal Cert.KernelIdeal.Gen Cert.KernelIdeal.Fr Cert.KernelIdeal.Val0P Cert.GcnSpec

variable (V : (c : Dev nD) → (b : Ref sig .tc) → Buf (Elt Ideal) ((c : Thread nD τ).loc b)) (c : Dev nD) (t : Fin cfg0.N)

abbrev srcblk : Vec Ideal S8192 .i32 := iblk0 V c 0 t
abbrev nrmblk : Vec Ideal S8192 .f32 := iblk0 V c 1 t
abbrev tblblk : Vec Ideal S1024x128 .bf16 := iblk0 V c 2 t

def srcN (n : ℕ) : BitVec 32 := if h : n < 851968 then V c main_v31 (ix1 ⟨n, h⟩) else 0#32
def nrmN (n : ℕ) : EReal := if h : n < 851968 then V c main_v35 (ix1 ⟨n, h⟩) else 0
def tblN (n : ℕ) (k : Fin 128) : EReal := if h : n < 50176 then V c main_v38 (ix2 ⟨n, h⟩ k) else 0

theorem idx0 : ∀ t : Fin cfg0.N, win0_0.index t (0 : Fin 1) = t.val / 49 ∧ win0_1.index t (0 : Fin 1) = t.val / 49
    ∧ win0_2.index t (0 : Fin 2) = t.val % 49 ∧ win0_2.index t (1 : Fin 2) = 0
    ∧ win0_3.index t (0 : Fin 2) = t.val / 49 ∧ win0_3.index t (1 : Fin 2) = 0 ∧ ((grid0.coords t) 1).val = t.val % 49 :=
  (by decide +kernel : ∀ t : Fin grid0.N, _)

theorem srcblk_eq (e : Fin 8192) :
    srcblk V c t (ix1 e) = srcN V c (8192 * (t.val / 49) + e.val) := by
  have hlt : 8192 * (t.val / 49) + e.val < 851968 := by have : t.val < 5096 := t.isLt; omega
  unfold srcN
  rw [dif_pos hlt]
  show V c main_v31 _ = V c main_v31 _
  refine congrArg _ (funext fun a => Fin.ext ?_)
  match a with
  | ⟨0, _⟩ => show win0_0.index t (0 : Fin 1) * 8192 + 1 * e.val = 8192 * (t.val / 49) + e.val; rw [(idx0 t).1]; omega

theorem nrmblk_eq (e : Fin 8192) :
    nrmblk V c t (ix1 e) = nrmN V c (8192 * (t.val / 49) + e.val) := by
  have hlt : 8192 * (t.val / 49) + e.val < 851968 := by have : t.val < 5096 := t.isLt; omega
  unfold nrmN
  rw [dif_pos hlt]
  show V c main_v35 _ = V c main_v35 _
  refine congrArg _ (funext fun a => Fin.ext ?_)
  match a with
  | ⟨0, _⟩ => show win0_1.index t (0 : Fin 1) * 8192 + 1 * e.val = 8192 * (t.val / 49) + e.val; rw [(idx0 t).2.1]; omega

theorem tblblk_eq (r : Fin 1024) (k : Fin 128) :
    tblblk V c t (ix2 r k) = tblN V c (1024 * (t.val % 49) + r.val) k := by
  have hlt : 1024 * (t.val % 49) + r.val < 50176 := by omega
  unfold tblN
  rw [dif_pos hlt]
  show V c main_v38 _ = V c main_v38 _
  refine congrArg _ (funext fun a => Fin.ext ?_)
  match a with
  | ⟨0, _⟩ => show win0_2.index t (0 : Fin 2) * 1024 + 1 * r.val = 1024 * (t.val % 49) + r.val; rw [(idx0 t).2.2.1]; omega
  | ⟨1, _⟩ => show win0_2.index t (1 : Fin 2) * 128 + 1 * k.val = k.val; rw [(idx0 t).2.2.2.1]; omega

def term (i0 j : ℕ) (e : Fin 8192) (k : Fin 128) : EReal :=
  ∑ r : Fin 1024, hit (srcN V c (8192 * i0 + e.val)) (BitVec.ofNat 32 (1024 * j + r.val)) * tblN V c (1024 * j + r.val) k

theorem step_eq (acc : Vec Ideal S8192x128 .f32) (e : Fin 8192) (k : Fin 128) :
    k0_pay2 (F := Ideal) (grid0.coords t) (srcblk V c t) acc (tblblk V c t) (ix2 e k)
      = acc (ix2 e k) + term V c (t.val / 49) (t.val % 49) e k := by
  rw [pay2_apply]
  refine congrArg (acc (ix2 e k) + ·) (Finset.sum_congr rfl fun r _ => ?_)
  rw [srcblk_eq, tblblk_eq, (idx0 t).2.2.2.2.2.2]

theorem acc_first (h0 : t.val % 49 = 0) (h1 : ¬t.val % 49 = 48) :
    (outsAt0 V c t.val t.isLt).2 = k0_pay2 (F := Ideal) (grid0.coords t) (srcblk V c t) (k0_pay1 (F := Ideal)) (tblblk V c t) := by
  rw [outsAt0_A V c t h0 h1]
  dsimp only
  rw [sout0_A_eq]

theorem acc_next (h0 : ¬t.val % 49 = 0) :
    (outsAt0 V c t.val t.isLt).2 = k0_pay2 (F := Ideal) (grid0.coords t) (srcblk V c t) (outsAt0 V c (t.val - 1) (Nat.lt_of_le_of_lt (Nat.sub_le _ _) t.isLt)).2 (tblblk V c t) := by
  by_cases h1 : t.val % 49 = 48
  · rw [outsAt0_C V c t h0 h1]
    dsimp only
    rw [sout0_C_eq]
  · rw [outsAt0_B V c t h0 h1]
    dsimp only
    rw [sout0_B_eq]

theorem out_last (h0 : ¬t.val % 49 = 0) (h1 : t.val % 49 = 48) :
    (outsAt0 V c t.val t.isLt).1
      = k0_pay3 (F := Ideal) (k0_pay2 (F := Ideal) (grid0.coords t) (srcblk V c t) (outsAt0 V c (t.val - 1) (Nat.lt_of_le_of_lt (Nat.sub_le _ _) t.isLt)).2 (tblblk V c t)) (nrmblk V c t) := by
  rw [outsAt0_C V c t h0 h1]
  dsimp only
  rw [out0_C_eq]

theorem acc_eq (n : ℕ) : ∀ (hn : n < cfg0.N) (e : Fin 8192) (k : Fin 128),
    (outsAt0 V c n hn).2 (ix2 e k) = ∑ j' ∈ Finset.range (n % 49 + 1), term V c (n / 49) j' e k := by
  induction n using Nat.strong_induction_on with
  | _ n ih =>
    intro hn e k
    by_cases h0 : n % 49 = 0
    · refine (congrFun (acc_first V c ⟨n, hn⟩ h0 (by dsimp only; omega)) (ix2 e k)).trans ?_
      rw [step_eq, pay1_apply, zero_add]
      show term V c (n / 49) (n % 49) e k = _
      rw [h0, Finset.sum_range_one]
    · refine (congrFun (acc_next V c ⟨n, hn⟩ h0) (ix2 e k)).trans ?_
      rw [step_eq]
      show (outsAt0 V c (n - 1) _).2 (ix2 e k) + term V c (n / 49) (n % 49) e k = _
      rw [ih (n - 1) (by omega) _ e k, show (n - 1) / 49 = n / 49 by omega, show (n - 1) % 49 + 1 = n % 49 by omega]
      exact (Finset.sum_range_succ (fun j' => term V c (n / 49) j' e k) (n % 49)).symm

theorem out_eq (h1 : t.val % 49 = 48) (e : Fin 8192) (k : Fin 128) :
    (outsAt0 V c t.val t.isLt).1 (ix2 e k)
      = (∑ j' ∈ Finset.range 49, term V c (t.val / 49) j' e k) * nrmN V c (8192 * (t.val / 49) + e.val) := by
  have h0 : ¬t.val % 49 = 0 := by omega
  have hacc := acc_eq V c t.val t.isLt e k
  rw [acc_next V c t h0, h1] at hacc
  refine (congrFun (out_last V c t h0 h1) (ix2 e k)).trans ?_
  rw [pay3_apply, hacc, nrmblk_eq]

def msgs : Vec Ideal S851968x128 .bf16 := fun i =>
  gatherK (fun e => V c main_v31 (ix1 e)) (fun e => V c main_v35 (ix1 e)) (fun r k => V c main_v38 (ix2 r k))
    ⟨(i 0).val, idx2_lt0 i⟩ ⟨(i 1).val, idx2_lt1 i⟩

theorem row_value (i0 : ℕ) (e : Fin 8192) (k : Fin 128) (i : S851968x128.Idx)
    (hi0 : (i 0).val = 8192 * i0 + e.val) (hi1 : (i 1).val = k.val) :
    (∑ j' ∈ Finset.range 49, term V c i0 j' e k) * nrmN V c (8192 * i0 + e.val) = msgs V c i := by
  have hE : 8192 * i0 + e.val < 851968 := hi0 ▸ idx2_lt0 i
  have hk : (⟨(i 1).val, idx2_lt1 i⟩ : Fin 128) = k := Fin.ext hi1
  have hs : srcN V c (8192 * i0 + e.val) = V c main_v31 (ix1 ⟨(i 0).val, idx2_lt0 i⟩) := by
    unfold srcN; rw [dif_pos hE]; exact congrArg (fun q => V c main_v31 (ix1 q)) (Fin.ext hi0.symm)
  have hn : nrmN V c (8192 * i0 + e.val) = V c main_v35 (ix1 ⟨(i 0).val, idx2_lt0 i⟩) := by
    unfold nrmN; rw [dif_pos hE]; exact congrArg (fun q => V c main_v35 (ix1 q)) (Fin.ext hi0.symm)
  unfold msgs gatherK
  rw [hk, hn, Finset.sum_range (fun j' => term V c i0 j' e k),
    ← sum_blocks (a := 49) (b := 1024) rfl (fun q => hit (V c main_v31 (ix1 ⟨(i 0).val, idx2_lt0 i⟩)) (BitVec.ofNat 32 q.val) * V c main_v38 (ix2 q k)) fun j r => by omega]
  refine congrArg (· * _) (Finset.sum_congr rfl fun j _ => ?_)
  unfold term
  refine Finset.sum_congr rfl fun r _ => ?_
  have hlt : 1024 * j.val + r.val < 50176 := by have := j.isLt; have := r.isLt; omega
  rw [hs]
  unfold tblN
  rw [dif_pos hlt]

theorem flushed_eq (hf : (cfg0.win 3).flush t = true) :
    (dat0 V c).flushed 3 t = ((cfg0.win 3).blk t).view.read (Elt Ideal) (msgs V c) := by
  have h1 : t.val % 49 = 48 := (flush0_3 t).mp hf
  show (cfg0.win 3).cut (grid0.coords t) ((dat0 V c).after 3 t) = _
  rw [after0_3]
  funext j
  rw [View.read_apply]
  have hj0 : (j 0).val < 8192 := (j 0).isLt
  have hj1 : (j 1).val < 128 := (j 1).isLt
  have hx : (cfg0.win 3).xinj (grid0.coords t) j = ix2 (⟨(j 0).val, hj0⟩ : Fin 8192) (⟨(j 1).val, hj1⟩ : Fin 128) :=
    funext fun a => by match a with | ⟨0, _⟩ => rfl | ⟨1, _⟩ => rfl
  show (outsAt0 V c t.val t.isLt).1 ((cfg0.win 3).xinj (grid0.coords t) j) = msgs V c (((cfg0.win 3).blk t).view.emb j)
  refine (congrArg (outsAt0 V c t.val t.isLt).1 hx).trans ?_
  rw [out_eq V c t h1]
  obtain ⟨-, -, -, -, e0, e1, -⟩ := idx0 t
  refine row_value V c (t.val / 49) ⟨(j 0).val, hj0⟩ ⟨(j 1).val, hj1⟩ _ ?_ ?_
  · show win0_3.index t (0 : Fin 2) * 8192 + 1 * (j 0).val = 8192 * (t.val / 49) + (j 0).val; rw [e0]; omega
  · show win0_3.index t (1 : Fin 2) * 128 + 1 * (j 1).val = (j 1).val; rw [e1]; omega

theorem mem_blk (i : S851968x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v39).slice (win0_3.rect t)).set ↔ _
  rw [View.set_slice_whole, Rect.mem_set_unit]
  exact Iff.rfl

theorem msgs_arr : (dat0 V c).arrAt 3 cfg0.N = msgs V c :=
  (dat0 V c).arrAt_eq_of_cover 3 (msgs V c) (flushed_eq V c) fun i => by
    have hi0 : (i 0).val < 851968 := (i 0).isLt
    have hi1 : (i 1).val < 128 := (i 1).isLt
    have hlt : 49 * ((i 0).val / 8192) + 48 < 5096 := by omega
    obtain ⟨-, -, -, -, e0, e1, -⟩ := idx0 ⟨49 * ((i 0).val / 8192) + 48, hlt⟩
    refine ⟨⟨_, hlt⟩, (flush0_3 _).mpr (by dsimp only; omega), ?_⟩
    rw [mem_blk]
    intro a
    match a with
    | ⟨0, _⟩ =>
      show win0_3.index _ (0 : Fin 2) * 8192 ≤ (i 0).val ∧ (i 0).val < win0_3.index _ (0 : Fin 2) * 8192 + 8192
      rw [e0]; dsimp only; omega
    | ⟨1, _⟩ =>
      show win0_3.index _ (1 : Fin 2) * 128 ≤ (i 1).val ∧ (i 1).val < win0_3.index _ (1 : Fin 2) * 128 + 128
      rw [e1]; omega

theorem msgs_eq (c : Dev nD) (e : Fin 851968) (k : Fin 128) :
    (Cert.KernelIdeal.Fr.dat0 (F := Ideal) V c).arrAt 3 cfg0.N (ix2 e k)
      = Cert.GcnSpec.gatherK (fun e => V c main_v31 (ix1 e)) (fun e => V c main_v35 (ix1 e)) (fun r k => V c main_v38 (ix2 r k)) e k := by
  rw [msgs_arr V c]
  rfl

end Cert.KernelIdeal.Val0

end
-- ==== Proof.R1Pieces.lean ====
import proofs.«413077_j6382321402034_1_alg».proof.Proof.R1Frame
import Idealize.ShloMosaic.Lib.Pipeline.Value

noncomputable section

namespace Cert.KernelIdeal.Fr

open Idealize.ShloMosaic Idealize.ShloMosaic.TcCoe Idealize.ShloMosaic.Tactic Idealize.SL.Sem
open Cert.KernelIdeal Cert.KernelIdeal.Gen

theorem r1_hz2 : (![0, 0] : Fin 2 → Nat) = fun _ => 0 := by decide
theorem r1_hz1 : (![0] : Fin 1 → Nat) = fun _ => 0 := by decide

variable {F : FTy → Type} [FloatOps F] (c : Dev nD) (i : grid1.Coords)
  (arg2 : Memref sig .tc .vmem S8192 .i32) (harg2 : arg2.IsWhole) (arg3 : Memref sig .tc .vmem S8192x128 .bf16) (harg3 : arg3.IsWhole)
  (arg4 : Memref sig .tc .vmem S1024x128 .f32) (harg4 : arg4.IsWhole) (arg5 : Memref sig .tc .vmem S1024x128 .f32) (harg5 : arg5.IsWhole)

theorem sout1_A_eq (hc0 : cond1_0 i) (hc1 : ¬cond1_1 i) (x0 : Vec F S8192 .i32) (x1 : Vec F S8192x128 .bf16) :
    sout1_A_0 c i arg2 harg2 arg3 harg3 arg4 harg4 arg5 harg5 hc0 hc1 x0 x1 = k1_pay2 i x0 (k1_pay1 (F := F)) x1 := by
  unfold sout1_A_0
  rw [View.read_writes_eq_canon _ _ _ fun _ => scover1_A_0 ..]
  unfold kernelRun1_A
  dsimp only
  sl_unfold_words
  rw [View.canon_cons_unit_zero (S := S1024x128) r1_hz2]
  simp only [View.readAt_eq_ld, harg2.read_unread, harg3.read_unread, View.ld_unit_zero (S := S8192) r1_hz1, View.ld_unit_zero (S := S8192x128) r1_hz2, View.readCov_unit_zero (S := S1024x128) _ r1_hz2]

theorem sout1_B_eq (hc0 : ¬cond1_0 i) (hc1 : ¬cond1_1 i) (x0 : Vec F S8192 .i32) (x1 : Vec F S8192x128 .bf16) (xs0 : Vec F S1024x128 .f32) :
    sout1_B_0 c i arg2 harg2 arg3 harg3 arg4 harg4 arg5 harg5 hc0 hc1 x0 x1 xs0 = k1_pay2 i x0 xs0 x1 := by
  unfold sout1_B_0
  rw [View.read_writes_eq_canon _ _ _ fun _ => scover1_B_0 ..]
  unfold kernelRun1_B
  dsimp only
  sl_unfold_words
  rw [View.canon_unit_zero (S := S1024x128) r1_hz2]
  simp only [View.readAt_eq_ld, harg2.read_unread, harg3.read_unread, harg5.read_unread, View.ld_unit_zero (S := S8192) r1_hz1, View.ld_unit_zero (S := S8192x128) r1_hz2, View.ld_unit_zero (S := S1024x128) r1_hz2]

theorem sout1_C_eq (hc0 : ¬cond1_0 i) (hc1 : cond1_1 i) (x0 : Vec F S8192 .i32) (x1 : Vec F S8192x128 .bf16) (xs0 : Vec F S1024x128 .f32) :
    sout1_C_0 c i arg2 harg2 arg3 harg3 arg4 harg4 arg5 harg5 hc0 hc1 x0 x1 xs0 = k1_pay2 i x0 xs0 x1 := by
  unfold sout1_C_0
  rw [View.read_writes_eq_canon _ _ _ fun _ => scover1_C_0 ..]
  unfold kernelRun1_C
  dsimp only
  sl_unfold_words
  rw [View.canon_unit_zero (S := S1024x128) r1_hz2]
  simp only [View.readAt_eq_ld, harg2.read_unread, harg3.read_unread, harg5.read_unread, View.ld_unit_zero (S := S8192) r1_hz1, View.ld_unit_zero (S := S8192x128) r1_hz2, View.ld_unit_zero (S := S1024x128) r1_hz2]

theorem out1_C_eq (hc0 : ¬cond1_0 i) (hc1 : cond1_1 i) (x0 : Vec F S8192 .i32) (x1 : Vec F S8192x128 .bf16) (xs0 : Vec F S1024x128 .f32) :
    out1_C_2 c i arg2 harg2 arg3 harg3 arg4 harg4 arg5 harg5 hc0 hc1 x0 x1 xs0 = k1_pay2 i x0 xs0 x1 := by
  unfold out1_C_2
  rw [View.read_writes_eq_canon _ _ _ fun _ => cover1_C_2 ..]
  unfold kernelRun1_C
  dsimp only
  sl_unfold_words
  rw [View.canon_unit_zero (S := S1024x128) r1_hz2]
  simp only [View.readAt_eq_ld, harg2.read_unread, harg3.read_unread, harg5.read_unread, View.ld_unit_zero (S := S8192) r1_hz1, View.ld_unit_zero (S := S8192x128) r1_hz2, View.ld_unit_zero (S := S1024x128) r1_hz2, View.readCov_unit_zero (S := S1024x128) _ r1_hz2]

end Cert.KernelIdeal.Fr

end
-- ==== Proof.R1Pay.lean ====
import proofs.«413077_j6382321402034_1_alg».proof.Proof.R0Pay

noncomputable section

namespace Cert.KernelIdeal.Val1P

open Idealize.ShloMosaic Idealize.ShloMosaic.ValueIdx Idealize.SL.Sem Cert.KernelIdeal Cert.KernelIdeal.Gen Cert.GcnSpec Cert.KernelIdeal.Val0P

theorem pay1_apply (n : Fin 1024) (k : Fin 128) : k1_pay1 (F := Ideal) (ix2 n k) = 0 := by
  unfold k1_pay1
  rw [shapeCast_self]
  exact Ideal.ofBits_zero_f32

theorem pay2_apply (i : grid1.Coords) (v4 : Vec Ideal S8192 .i32) (v16 : Vec Ideal S1024x128 .f32) (v17 : Vec Ideal S8192x128 .bf16) (n : Fin 1024) (k : Fin 128) :
    k1_pay2 (F := Ideal) i v4 v16 v17 (ix2 n k)
      = v16 (ix2 n k) + ∑ e : Fin 8192, hit (v4 (ix1 e)) (BitVec.ofNat 32 (1024 * (i 0).val + n.val)) * v17 (ix2 e k) := by
  unfold k1_pay2
  simp only [shapeCast_self]
  rw [addf_apply]
  refine congrArg (v16 (ix2 n k) + ·) ((matmul_plain_apply _ _ n k).trans (Finset.sum_congr rfl fun e _ => ?_))
  rw [truncf_apply, sitofp_apply, extui_apply, cmpi_apply, broadcastTo_a1_ab_apply, broadcastTo_1b_ab_apply, iota_single_apply, subi_apply,
    shapeCast_a_1a_apply, sitofp_cmpi_eq, hit_comm (BitVec.ofNat 32 _), ← word_row]
  exact congrArg (· * _) (hit_sub ..)

end Cert.KernelIdeal.Val1P

end
-- ==== Proof.R1Value.lean ====
import proofs.«413077_j6382321402034_1_alg».proof.Proof.R1Pieces
import proofs.«413077_j6382321402034_1_alg».proof.Proof.R1Pay

noncomputable section

namespace Cert.KernelIdeal.Val1
open Idealize.ShloMosaic Idealize.ShloMosaic.TcCoe Idealize.ShloMosaic.ValueIdx
open Idealize.SL Idealize.SL.Sem
open Cert.KernelIdeal Cert.KernelIdeal.Gen Cert.KernelIdeal.Fr Cert.KernelIdeal.Val1P Cert.GcnSpec

variable (dst : Fin 851968 → BitVec 32) (msg : Fin 851968 → Fin 128 → EReal)

def stepSum (r : ℕ) (k : Fin 128) (j : ℕ) : EReal :=
  if h : j < 104 then ∑ e : Fin 8192, hit (dst ⟨8192 * j + e.val, by omega⟩) (BitVec.ofNat 32 r) * msg ⟨8192 * j + e.val, by omega⟩ k else 0

def accTo (r : ℕ) (k : Fin 128) (j : ℕ) : EReal := ∑ j' ∈ Finset.range (j + 1), stepSum dst msg r k j'

theorem accTo_last (n : Fin 50176) (k : Fin 128) : accTo dst msg n.val k 103 = scatterK dst msg n k := by
  unfold accTo scatterK stepSum
  rw [Finset.sum_range]
  refine Eq.trans (Finset.sum_congr rfl fun j _ => dif_pos j.isLt) ?_
  exact Val0P.sum_blocks (a := 104) (b := 8192) rfl (fun q => hit (dst q) (BitVec.ofNat 32 n.val) * msg q k) _

variable (V : (c : Dev nD) → (b : Ref sig .tc) → Buf (Elt Ideal) ((c : Thread nD τ).loc b)) (c : Dev nD) (t : Fin cfg1.N)

abbrev dblk : Vec Ideal S8192 .i32 := iblk1 V c 0 t

abbrev mblk : Vec Ideal S8192x128 .bf16 := iblk1 V c 1 t

abbrev dstF : Fin 851968 → BitVec 32 := fun e => V c main_v33 (ix1 e)

abbrev msgF : Fin 851968 → Fin 128 → EReal := fun e k => V c main_v39 (ix2 e k)

theorem N_1 : cfg1.N = 5096 := by decide

theorem grid_facts : ∀ t : Fin cfg1.N, ((grid1.coords t) 0).val = t.val / 104 ∧ ((grid1.coords t) 1).val = t.val % 104
    ∧ win1_0.index t (0 : Fin 1) = t.val % 104
    ∧ win1_1.index t (0 : Fin 2) = t.val % 104 ∧ win1_1.index t (1 : Fin 2) = 0
    ∧ win1_2.index t (0 : Fin 2) = t.val / 104 ∧ win1_2.index t (1 : Fin 2) = 0 :=
  (by decide +kernel : ∀ t : Fin grid1.N, _)

theorem dblk_apply (e : Fin 8192) :
    dblk V c t (ix1 e) = dstF V c ⟨8192 * (t.val % 104) + e.val, by omega⟩ := by
  show V c main_v33 _ = V c main_v33 _
  refine congrArg _ (funext fun a => Fin.ext ?_)
  match a with
  | ⟨0, _⟩ => show win1_0.index t (0 : Fin 1) * 8192 + 1 * e.val = 8192 * (t.val % 104) + e.val; rw [(grid_facts t).2.2.1]; omega

theorem mblk_apply (e : Fin 8192) (k : Fin 128) :
    mblk V c t (ix2 e k) = msgF V c ⟨8192 * (t.val % 104) + e.val, by omega⟩ k := by
  obtain ⟨-, -, -, h0, h1, -⟩ := grid_facts t
  show V c main_v39 _ = V c main_v39 _
  refine congrArg _ (funext fun a => Fin.ext ?_)
  match a with
  | ⟨0, _⟩ => show win1_1.index t (0 : Fin 2) * 8192 + 1 * e.val = 8192 * (t.val % 104) + e.val; rw [h0]; omega
  | ⟨1, _⟩ => show win1_1.index t (1 : Fin 2) * 128 + 1 * k.val = k.val; rw [h1]; omega

theorem step_apply (xs : Vec Ideal S1024x128 .f32) (n : Fin 1024) (k : Fin 128) :
    k1_pay2 (F := Ideal) (grid1.coords t) (dblk V c t) xs (mblk V c t) (ix2 n k)
      = xs (ix2 n k) + stepSum (dstF V c) (msgF V c) (1024 * (t.val / 104) + n.val) k (t.val % 104) := by
  rw [pay2_apply, (grid_facts t).1]
  unfold stepSum
  rw [dif_pos (Nat.mod_lt _ (by decide))]
  refine congrArg (xs (ix2 n k) + ·) (Finset.sum_congr rfl fun e _ => ?_)
  rw [dblk_apply, mblk_apply]

theorem scratch_eq : ∀ (m : ℕ) (h : m < cfg1.N) (n : Fin 1024) (k : Fin 128),
    (outsAt1 V c m h).2 (ix2 n k) = accTo (dstF V c) (msgF V c) (1024 * (m / 104) + n.val) k (m % 104) := by
  intro m
  induction m using Nat.strong_induction_on with
  | _ m ih =>
    intro h n k
    by_cases h0 : m % 104 = 0
    · have h1 : ¬m % 104 = 103 := by omega
      rw [outsAt1_A V c ⟨m, h⟩ h0 h1]
      dsimp only
      rw [sout1_A_eq]
      refine (step_apply V c ⟨m, h⟩ _ n k).trans ?_
      rw [pay1_apply, zero_add]
      show stepSum _ _ _ k (m % 104) = _
      rw [h0]
      exact (Finset.sum_range_one (stepSum (dstF V c) (msgF V c) _ k)).symm
    · have hstep : ∀ xs : Vec Ideal S1024x128 .f32, xs (ix2 n k) = accTo (dstF V c) (msgF V c) (1024 * ((m - 1) / 104) + n.val) k ((m - 1) % 104) →
          k1_pay2 (F := Ideal) (grid1.coords ⟨m, h⟩) (dblk V c ⟨m, h⟩) xs (mblk V c ⟨m, h⟩) (ix2 n k)
            = accTo (dstF V c) (msgF V c) (1024 * (m / 104) + n.val) k (m % 104) := by
        intro xs hxs
        refine (step_apply V c ⟨m, h⟩ xs n k).trans ?_
        rw [hxs, show (m - 1) / 104 = m / 104 by omega]
        show _ + stepSum _ _ _ k (m % 104) = _
        rw [show m % 104 = (m - 1) % 104 + 1 by omega]
        exact (Finset.sum_range_succ (stepSum (dstF V c) (msgF V c) _ k) _).symm
      by_cases h1 : m % 104 = 103
      · rw [outsAt1_C V c ⟨m, h⟩ h0 h1]
        dsimp only
        rw [sout1_C_eq]
        exact hstep _ (ih (m - 1) (by omega) _ n k)
      · rw [outsAt1_B V c ⟨m, h⟩ h0 h1]
        dsimp only
        rw [sout1_B_eq]
        exact hstep _ (ih (m - 1) (by omega) _ n k)

theorem out_eq_scratch (h1 : t.val % 104 = 103) :
    (outsAt1 V c t.val t.isLt).1 = (outsAt1 V c t.val t.isLt).2 := by
  have h0 : ¬t.val % 104 = 0 := by omega
  rw [outsAt1_C V c t h0 h1]
  dsimp only
  rw [out1_C_eq, sout1_C_eq]

def aggArr : Vec Ideal S50176x128 .f32 := fun i => scatterK (dstF V c) (msgF V c) (i 0) (i 1)

theorem blk2_read (G : Vec Ideal S50176x128 .f32) (n : Fin 1024) (k : Fin 128)
    (hb : 1024 * (t.val / 104) + n.val < 50176) :
    View.read (Elt Ideal) ((cfg1.win 2).blk t).view (G : Buf (Elt Ideal) ((c : Thread nD τ).loc main_v40)) (ix2 n k)
      = G (ix2 ⟨1024 * (t.val / 104) + n.val, hb⟩ k) := by
  obtain ⟨-, -, -, -, -, g0, g1⟩ := grid_facts t
  show G (((cfg1.win 2).blk t).view.emb (ix2 n k)) = _
  refine congrArg G (funext fun a => Fin.ext ?_)
  match a with
  | ⟨0, _⟩ => show win1_2.index t (0 : Fin 2) * 1024 + 1 * n.val = 1024 * (t.val / 104) + n.val; rw [g0]; omega
  | ⟨1, _⟩ => show win1_2.index t (1 : Fin 2) * 128 + 1 * k.val = k.val; rw [g1]; omega

theorem flushed_eq (hf : (cfg1.win 2).flush t = true) :
    (dat1 V c).flushed 2 t = ((cfg1.win 2).blk t).view.read (Elt Ideal) (aggArr V c) := by
  have h1 : t.val % 104 = 103 := (flush1_2 t).mp hf
  have hN : t.val < 5096 := N_1 ▸ t.isLt
  show (cfg1.win 2).cut (grid1.coords t) ((dat1 V c).after 2 t) = _
  rw [after1_2, out_eq_scratch V c t h1]
  funext j
  obtain ⟨n, k, rfl⟩ : ∃ (n : Fin 1024) (k : Fin 128), j = ix2 n k := ⟨j 0, j 1, eq_ix2 j⟩
  have hb : 1024 * (t.val / 104) + n.val < 50176 := by omega
  refine Eq.trans ?_ (blk2_read t (aggArr V c) n k hb).symm
  show (outsAt1 V c t.val t.isLt).2 (ix2 n k) = _
  rw [scratch_eq V c t.val t.isLt n k, h1]
  exact accTo_last (dstF V c) (msgF V c) ⟨1024 * (t.val / 104) + n.val, hb⟩ k

theorem cover (i : S50176x128.Idx) :
    ∃ t : Fin cfg1.N, (cfg1.win 2).flush t = true ∧ i ∈ ((cfg1.win 2).blk t).view.set := by
  have hi0 : (i 0).val < 50176 := (i 0).isLt
  have hi1 : (i 1).val < 128 := (i 1).isLt
  have ht : 104 * ((i 0).val / 1024) + 103 < cfg1.N := by rw [N_1]; omega
  obtain ⟨-, -, -, -, -, g0, g1⟩ := grid_facts ⟨_, ht⟩
  dsimp only at g0
  refine ⟨⟨_, ht⟩, (flush1_2 _).mpr (by dsimp only; omega), ?_⟩
  show i ∈ ((View.whole main_v40).slice (win1_2.rect ⟨_, ht⟩)).set
  rw [View.set_slice_whole, Rect.mem_set_unit]
  intro a
  match a with
  | ⟨0, _⟩ =>
    show win1_2.index _ (0 : Fin 2) * 1024 ≤ (i 0).val ∧ (i 0).val < win1_2.index _ (0 : Fin 2) * 1024 + 1024
    rw [g0]; omega
  | ⟨1, _⟩ =>
    show win1_2.index _ (1 : Fin 2) * 128 ≤ (i 1).val ∧ (i 1).val < win1_2.index _ (1 : Fin 2) * 128 + 128
    rw [g1]; omega

theorem final_agg : (dat1 V c).arrAt 2 cfg1.N = aggArr V c :=
  (dat1 V c).arrAt_eq_of_cover 2 (aggArr V c) (flushed_eq V c) cover

theorem agg_eq (c : Dev nD) (n : Fin 50176) (k : Fin 128) :
    (dat1 V c).arrAt 2 cfg1.N (ix2 n k)
      = Cert.GcnSpec.scatterK (fun e => V c main_v33 (ix1 e)) (fun e k => V c main_v39 (ix2 e k)) n k := by
  rw [final_agg V c]
  rfl

end Cert.KernelIdeal.Val1
end
-- ==== Proof.R2Value.lean ====
import proofs.«413077_j6382321402034_1_alg».proof.Proof.R2Frame
import Idealize.ShloMosaic.Lib.Pipeline.Value
import Idealize.ShloMosaic.Lib.ValueIdx

noncomputable section

namespace Cert.KernelIdeal.Val2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

theorem row_lt (n : Fin 50000) (y : Fin 5000) : 5000 * (n.val / 5000) + y.val < 50176 := by have := n.isLt; have := y.isLt; omega

variable (V : (c : Dev nD) → (b : Ref sig .tc) → Buf (Elt Ideal) ((c : Thread nD τ).loc b)) (c : Dev nD)

theorem hz2 : (![0, 0] : Fin 2 → Nat) = fun _ => 0 := by decide
theorem hz1 : (![0] : Fin 1 → Nat) = fun _ => 0 := by decide

theorem idx_facts : ∀ t : Fin cfg2.N,
    win2_0.index t (0 : Fin 2) = t.val ∧ win2_0.index t (1 : Fin 2) = 0
    ∧ (∀ a, win2_1.index t a = 0) ∧ (∀ a, win2_2.index t a = 0) ∧ (∀ a, win2_3.index t a = 0) ∧ (∀ a, win2_4.index t a = 0)
    ∧ win2_5.index t (0 : Fin 2) = t.val ∧ win2_5.index t (1 : Fin 2) = 0 ∧ t.val < 10 :=
  (by decide +kernel : ∀ t : Fin grid2.N, _)

def rowsAt (q : Fin 10) : Vec Ideal S5000x128 .f32 :=
  fun y => (V c main_v40 : S50176x128.Idx → Elt Ideal .f32)
    (ix2 ⟨5000 * q.val + (y 0).val, by have := idx2_lt0 y; have := q.isLt; omega⟩ (y 1 : Fin 128))

theorem blk2_0_eq (t : Fin cfg2.N) (ht : t.val < 10) : blk2_0 V c t = rowsAt V c ⟨t.val, ht⟩ := by
  funext y
  rw [blk2_0_apply]
  show V c main_v40 _ = V c main_v40 _
  refine congrArg _ (funext fun a => Fin.ext ?_)
  match a with
  | ⟨0, _⟩ => show win2_0.index t 0 * 5000 + 1 * (y 0).val = 5000 * t.val + (y 0).val; rw [(idx_facts t).1]; omega
  | ⟨1, _⟩ => show win2_0.index t 1 * 128 + 1 * (y 1).val = (y 1).val; rw [(idx_facts t).2.1]; omega

theorem iblk2_1_eq (t : Fin cfg2.N) : (iblk2 V c 1 t : Vec Ideal S128x128 .bf16) = (V c main_v42 : S128x128.Idx → Elt Ideal .bf16) := by
  funext y
  refine congrArg (V c main_v42) (funext fun a => Fin.ext ?_)
  show win2_1.index t a * _ + 1 * (y a).val = (y a).val
  rw [(idx_facts t).2.2.1 a]; omega
theorem iblk2_2_eq (t : Fin cfg2.N) : (iblk2 V c 2 t : Vec Ideal S128 .f32) = (V c main_arg3 : S128.Idx → Elt Ideal .f32) := by
  funext y
  refine congrArg (V c main_arg3) (funext fun a => Fin.ext ?_)
  show win2_2.index t a * _ + 1 * (y a).val = (y a).val
  rw [(idx_facts t).2.2.2.1 a]; omega
theorem iblk2_3_eq (t : Fin cfg2.N) : (iblk2 V c 3 t : Vec Ideal S128 .f32) = (V c main_arg4 : S128.Idx → Elt Ideal .f32) := by
  funext y
  refine congrArg (V c main_arg4) (funext fun a => Fin.ext ?_)
  show win2_3.index t a * _ + 1 * (y a).val = (y a).val
  rw [(idx_facts t).2.2.2.2.1 a]; omega
theorem iblk2_4_eq (t : Fin cfg2.N) : (iblk2 V c 4 t : Vec Ideal S128 .f32) = (V c main_arg5 : S128.Idx → Elt Ideal .f32) := by
  funext y
  refine congrArg (V c main_arg5) (funext fun a => Fin.ext ?_)
  show win2_4.index t a * _ + 1 * (y a).val = (y a).val
  rw [(idx_facts t).2.2.2.2.2.1 a]; omega

def rowOut (q : Fin 10) (r : Fin 5000) (j : Fin 128) : Elt Ideal .f32 :=
  k2_pay1 (F := Ideal) (rowsAt V c q) (V c main_v42) (V c main_arg3) (V c main_arg4) (V c main_arg5) (ix2 r j)

def G : S50000x128.Idx → Elt Ideal .f32 := fun i =>
  rowOut V c ⟨(i 0).val / 5000, by have := idx2_lt0 i; omega⟩ ⟨(i 0).val % 5000, Nat.mod_lt _ (by decide)⟩ (i 1 : Fin 128)

theorem G_apply (q : Fin 10) (r : Fin 5000) (i : S50000x128.Idx) (h : (i 0).val = 5000 * q.val + r.val) :
    G V c i = rowOut V c q r (i 1 : Fin 128) := by
  have hr := r.isLt
  unfold G
  exact congrArg₂ (fun a b => rowOut V c a b (i 1 : Fin 128)) (Fin.ext (by show (i 0).val / 5000 = q.val; omega))
    (Fin.ext (by show (i 0).val % 5000 = r.val; omega))

theorem flushed_eq (t : Fin cfg2.N) :
    (dat2 V c).flushed 5 t = ((cfg2.win 5).blk t).view.read (Elt Ideal) (G V c) := by
  obtain ⟨-, -, -, -, -, -, e50, e51, hN⟩ := idx_facts t
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  rw [blk2_0_eq V c t hN, iblk2_1_eq, iblk2_2_eq, iblk2_3_eq, iblk2_4_eq]
  funext y
  rw [View.read_apply]
  have hy0 := idx2_lt0 (n0 := 5000) (n1 := 128) y
  have hemb0 : ((((cfg2.win 5).blk t).view.emb y) 0).val = 5000 * t.val + (y 0).val := by
    show win2_5.index t 0 * 5000 + 1 * (y 0).val = _; rw [e50]; omega
  have hemb1 : ((((cfg2.win 5).blk t).view.emb y) 1).val = (y 1).val := by
    show win2_5.index t 1 * 128 + 1 * (y 1).val = (y 1).val; rw [e51]; omega
  rw [G_apply V c ⟨t.val, hN⟩ ⟨(y 0).val, hy0⟩ _ hemb0]
  unfold rowOut
  show k2_pay1 (F := Ideal) _ _ _ _ _ y = _
  congr 1
  funext a
  match a with
  | ⟨0, _⟩ => rfl
  | ⟨1, _⟩ => exact Fin.ext hemb1.symm

theorem cover5 (i : S50000x128.Idx) : ∃ t : Fin cfg2.N, (cfg2.win 5).flush t = true ∧ i ∈ ((cfg2.win 5).blk t).view.set := by
  have hi0 := idx2_lt0 (n0 := 50000) (n1 := 128) i
  have hi1 := idx2_lt1 (n0 := 50000) (n1 := 128) i
  let t : Fin cfg2.N := ⟨(i 0).val / 5000, by rw [show cfg2.N = 10 from N_2]; omega⟩
  obtain ⟨-, -, -, -, -, -, e50, e51, -⟩ := idx_facts t
  have ht : t.val = (i 0).val / 5000 := rfl
  refine ⟨t, flush2_5 t, ?_⟩
  show i ∈ ((View.whole main_v43).slice (win2_5.rect t)).set
  rw [View.set_slice_whole, Rect.mem_set_unit]
  intro a
  match a with
  | ⟨0, _⟩ => show win2_5.index t 0 * 5000 ≤ (i 0).val ∧ (i 0).val < win2_5.index t 0 * 5000 + 5000; rw [e50, ht]; omega
  | ⟨1, _⟩ => show win2_5.index t 1 * 128 ≤ (i 1).val ∧ (i 1).val < win2_5.index t 1 * 128 + 128; rw [e51]; omega

theorem final5 : (dat2 V c).arrAt 5 cfg2.N = G V c :=
  (dat2 V c).arrAt_eq_of_cover 5 (G V c) (fun t _ => flushed_eq V c t) cover5

theorem out_rows (c : Dev nD) (n : Fin 50000) (j : Fin 128) :
    (Cert.KernelIdeal.Fr.dat2 (F := Ideal) V c).arrAt 5 cfg2.N (ix2 n j)
      = k2_pay1 (F := Ideal) (fun y => V c main_v40 (ix2 ⟨5000 * (n.val / 5000) + (y 0).val, row_lt n (y 0)⟩ (y 1))) (V c main_v42) (V c main_arg3) (V c main_arg4) (V c main_arg5)
          (ix2 ⟨n.val % 5000, Nat.mod_lt _ (by decide)⟩ j) := by
  rw [final5]
  rfl

end Cert.KernelIdeal.Val2

end
-- ==== Proof.R2Pay.lean ====
import proofs.«413077_j6382321402034_1_alg».proof.Proof.R0Pay

noncomputable section
namespace Cert.KernelIdeal.Val2P
open Idealize.ShloMosaic Idealize.ShloMosaic.ValueIdx
open Cert.KernelIdeal Cert.KernelIdeal.Gen Cert.KernelIdeal.Val0P Cert.GcnSpec

theorem rowSum_apply (x : FVec Ideal S5000x128 .f32) (n : Fin 5000) :
    multiReduction (F := Ideal) .add [1] S5000 x 0x00000000#32 reduces_S5000x128_S5000 (.inl rfl) rfl (ix1 n)
      = ∑ k : Fin 128, x (ix2 n k) := by
  refine (Ideal.multiReduction_add_single x 0x00000000#32 reduces_S5000x128_S5000 (.inl rfl) rfl (ix1 n)).trans ?_
  refine Finset.sum_congr rfl fun k _ => congrArg x ?_
  funext c
  match c with
  | ⟨0, _⟩ => rfl
  | ⟨1, _⟩ => rfl

theorem matmul_fin_apply (a : FVec Ideal S5000x128 .bf16) (b : FVec Ideal S128x128 .bf16) (n : Fin 5000) (j : Fin 128) :
    matmul (F := Ideal) dot_S5000x128_S128x128_S5000x128_1_0_0_1_n_n none a b (constant (F := Ideal) S5000x128 .f32 0x00000000#32) (ix2 n j)
      = ∑ k : Fin 128, a (ix2 n k) * b (ix2 k j) := matmul_plain_apply a b n j

theorem rsqrt_apply {s : Shape} {φ : FTy} (a : FVec Ideal s φ) (i : s.Idx) : rsqrt a i = Ideal.rsqrt (a i) := rfl

theorem scalar_ofBits (b : BitVec 32) : Scalar.ofBits (F := Ideal) .f32 b = Ideal.ofBits .f32 b := rfl

theorem pay_fin_apply (v0 : Vec Ideal S5000x128 .f32) (v3 : Vec Ideal S128x128 .bf16) (v6 v30 v34 : Vec Ideal S128 .f32) (n : Fin 5000) (j : Fin 128) :
      k2_pay1 (F := Ideal) v0 v3 v6 v30 v34 (ix2 n j)
        = Cert.GcnSpec.lnRelu (fun j' => (∑ k : Fin 128, v0 (ix2 n k) * v3 (ix2 k j')) + v6 (ix1 j')) (fun j' => v30 (ix1 j')) (fun j' => v34 (ix1 j')) j := by
  unfold k2_pay1
  simp -index only [addf_apply, mulf_apply, subf_apply, divf_apply, maximumf_apply, rsqrt_apply, broadcast_apply, truncf_apply,
    shapeCast_self, broadcastTo_1b_ab_apply, shapeCast_a_1a_apply, broadcastTo_a1_ab_apply, shapeCast_a_a1_apply, rowSum_apply,
    matmul_fin_apply, scalar_ofBits, Ideal.ofBits_zero_f32]
  simp only [lnRelu, lnRow, mean, relu, c128, epsLN]

end Cert.KernelIdeal.Val2P
end
-- ==== Proof.LibIndexed.lean ====
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

abbrev rowsDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

theorem gather_rows_apply {α : Type} {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (e : Fin R) (k : Fin K) :
    Host.gather (rowsDims N K R wf) x idx (ix2 e k) = x (ix2 ⟨min (idx (ix2 e (0 : Fin 1))).toInt.toNat (N - 1), by omega⟩ k) := by
  unfold Host.gather
  congr 1
  funext a
  refine Fin.ext ?_
  match a with
  | ⟨0, h0⟩ =>

    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]

    have hsi : GatherDims.siIdx (rowsDims N K R wf) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>

    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept (rowsDims N K R wf) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- An update lands at `r` exactly when start plus window is `r` on every axis. -/
theorem resultIdx?_eq_some {s si u : Shape} (d : ScatterDims s si u) {w : Nat} (j : u.Idx) (idx : IVec si w) (r : s.Idx) :
    d.resultIdx? j idx = some r ↔ ∀ a, d.start j idx a + (d.window j a : ℤ) = ((r a).val : ℤ) := by
  unfold ScatterDims.resultIdx?
  split
  · rename_i h
    rw [Option.some.injEq]
    refine ⟨fun heq a => ?_, fun hr => funext fun a => Fin.ext ?_⟩
    · have h0 : (d.start j idx a + (d.window j a : ℤ)).toNat = (r a).val := congrArg Fin.val (congrFun heq a)
      have := (h a).1
      omega
    · show (d.start j idx a + (d.window j a : ℤ)).toNat = (r a).val
      have := hr a
      omega
  · rename_i h
    refine ⟨fun h' => (by cases h'), fun hr => absurd (fun a => ?_) h⟩
    have := hr a
    have := (r a).isLt
    omega

section vec
variable {N E w : Nat}
  (d : ScatterDims ⟨1, ![N]⟩ ⟨2, ![E, 1]⟩ ⟨1, ![E]⟩)
  (wf : ScatterDims.WF ⟨1, ![N]⟩ ⟨2, ![E, 1]⟩ ⟨1, ![E]⟩ [] [0] [0] 1)
  (hd : d = { updateWindowDims := [], insertedWindowDims := [0], scatterDimsToOperandDims := [0], indexVectorDim := 1, wf := wf })
include hd

theorem scatter_vec_resultIdx
    (idx : IVec ⟨2, ![E, 1]⟩ w) (e : Fin E) (n : Fin N) :
    d.resultIdx? (ix1 e) idx = some (ix1 n) ↔ (idx (ix2 e (0 : Fin 1))).toInt = (n.val : ℤ) := by
  have hstart : d.start (ix1 e) idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hwin : d.window (ix1 e) 0 = 0 := by
    subst hd
    unfold ScatterDims.window
    rw [dif_neg]
    simp [ScatterDims.sKept, Shape.kept]
  rw [resultIdx?_eq_some]
  constructor
  · intro h
    have g : d.start (ix1 e) idx 0 + (d.window (ix1 e) 0 : ℤ) = (n.val : ℤ) := h 0
    rw [hstart, hwin] at g
    omega
  · intro h a
    obtain rfl : a = 0 := Subsingleton.elim _ _
    show d.start (ix1 e) idx 0 + (d.window (ix1 e) 0 : ℤ) = (n.val : ℤ)
    rw [hstart, hwin]
    omega

theorem scatterAdd_vec_apply
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1

  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

end vec

section rows
variable {N K E w : Nat}
  (d : ScatterDims ⟨2, ![N, K]⟩ ⟨2, ![E, 1]⟩ ⟨2, ![E, K]⟩)
  (wf : ScatterDims.WF ⟨2, ![N, K]⟩ ⟨2, ![E, 1]⟩ ⟨2, ![E, K]⟩ [1] [0] [0] 1)
  (hd : d = { updateWindowDims := [1], insertedWindowDims := [0], scatterDimsToOperandDims := [0], indexVectorDim := 1, wf := wf })
include hd

theorem scatter_rows_resultIdx
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  rw [resultIdx?_eq_some]
  constructor
  · intro h
    have g0 : d.start (ix2 e k') idx 0 + (d.window (ix2 e k') 0 : ℤ) = (n.val : ℤ) := h 0
    have g1 : d.start (ix2 e k') idx 1 + (d.window (ix2 e k') 1 : ℤ) = (k.val : ℤ) := h 1
    rw [hstart0, hwin0] at g0
    rw [hstart1, hwin1] at g1
    exact ⟨by omega, Fin.ext (by omega)⟩
  · rintro ⟨heq, rfl⟩ a
    match a with
    | ⟨0, _⟩ =>
      show d.start (ix2 e k') idx 0 + (d.window (ix2 e k') 0 : ℤ) = (n.val : ℤ)
      rw [hstart0, hwin0]
      omega
    | ⟨1, _⟩ =>
      show d.start (ix2 e k') idx 1 + (d.window (ix2 e k') 1 : ℤ) = (k'.val : ℤ)
      rw [hstart1, hwin1]
      omega

theorem scatterAdd_rows_apply
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1

  rw [Finset.sum_filter, Finset.sum_filter, sum_idx2]
  refine Finset.sum_congr rfl (fun e _ => ?_)
  simp only [scatter_rows_resultIdx d wf hd idx e _ n k]

  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

end rows

end Cert.Rgcn.Lib

end
-- ==== Proof.LibGatherElem.lean ====
import Idealize.ShloMosaic.Lib.ValueIdx

noncomputable section

namespace Cert.LibGatherElem

open Idealize.ShloMosaic Idealize.ShloMosaic.ValueIdx

abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  refine congrArg x (funext fun a => Fin.ext ?_)
  obtain rfl : a = 0 := Subsingleton.elim _ _
  have hm : (0 : Fin 1) ∈ (vecDims N R wf).startIndexMap := List.mem_singleton.mpr rfl
  have hsi : (vecDims N R wf).siIdx (ix1 r) ⟨List.idxOf (0 : Fin 1) [0], List.idxOf_lt_length_iff.2 hm⟩
      = ix2 r ⟨0, Nat.one_pos⟩ := by
    funext b
    match b with
    | ⟨0, _⟩ => rfl
    | ⟨1, _⟩ => rfl
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ fun h => ((GatherDims.mem_sKept _ _).mp h).1 hm]
  unfold GatherDims.start
  rw [dif_pos hm, hsi]
  rfl

end Cert.LibGatherElem

end
-- ==== Proof.Chain.lean ====
import proofs.«413077_j6382321402034_1_alg».proof.Proof.Gen.KernelIdeal
import proofs.«413077_j6382321402034_1_alg».proof.Proof.LibIndexed
import proofs.«413077_j6382321402034_1_alg».proof.Proof.LibGatherElem
import Idealize.ShloMosaic.Lib.ValueIdx
import Idealize.ShloMosaic.Lib.StableHlo.Predicate
import Idealize.ShloMosaic.Lib.Pipeline.Value
import Idealize.ShloMosaic.PureOps.Ideal.Laws
import Idealize.ShloMosaic.Lib.IdealHost

noncomputable section

namespace Cert.GcnChain

open Idealize.ShloMosaic Idealize.ShloMosaic.ValueIdx
open Cert.KernelIdeal Cert.KernelIdeal.Gen

variable {F : FTy → Type} [FloatOps F]

def extOf (ei : IVec S2x800000 32) (off : Fin S2x800000.rank → Nat) (hs : S2x800000.Slices off S1x800000) :
    IVec S850000 32 :=
  concatenate S850000 0
    [⟨S800000, shapeCast S800000 (extractStridedSlice S1x800000 off ei hs) shapeCasts_S1x800000_S800000⟩,
     ⟨S50000, iotaInDim S50000 32 0⟩] concatenates_S800000_S50000_S850000_d0

def srcOf (ei : IVec S2x800000 32) : IVec S850000 32 := extOf ei ![0, 0] slices_S2x800000_S1x800000_0_0

def dstOf (ei : IVec S2x800000 32) : IVec S850000 32 := extOf ei ![1, 0] slices_S2x800000_S1x800000_1_0

def degOf (ei : IVec S2x800000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dstOf ei))
    (broadcastInDim S850000 ![] bcast_S_S850000 (constant S_ .f32 0x3F800000#32))

def dinvOf (ei : IVec S2x800000 32) : FVec F S50000 .f32 :=
  select (cmpf (F := F) .ogt (degOf ei) (broadcastInDim S50000 ![] bcast_S_S50000 (constant S_ .f32 0x00000000#32)))
    (Host.rsqrt (degOf ei))
    (broadcastInDim S50000 ![] bcast_S_S50000 (constant S_ .f32 0x00000000#32))

def wrapOf (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def nrmOf (ei : IVec S2x800000 32) : FVec F S850000 .f32 :=
  mulf
    (Host.gather gather_S50000_S850000x1_S850000_n_0_n_n_0_1_1 (dinvOf ei)
      (broadcastInDim S850000x1 ![0] bcast_S850000_S850000x1_0 (wrapOf (srcOf ei))))
    (Host.gather gather_S50000_S850000x1_S850000_n_0_n_n_0_1_1 (dinvOf ei)
      (broadcastInDim S850000x1 ![0] bcast_S850000_S850000x1_0 (wrapOf (dstOf ei))))

theorem extended_apply (ei : IVec S2x800000 32) (r : Fin 2) (off : Fin S2x800000.rank → Nat)
    (h0 : off 0 = r.val) (h1 : off 1 = 0) (hs : S2x800000.Slices off S1x800000) (e : Fin 850000) :
    extOf ei off hs (ix1 e)
      = if h : e.val < 800000 then ei (ix2 r ⟨e.val, h⟩) else BitVec.ofNat 32 (e.val - 800000) := by
  by_cases h : e.val < 800000
  · rw [dif_pos h]

    refine (concatenate_pair_apply_left (t := S850000) (s₁ := S800000) (s₂ := S50000) (0 : Fin 1) _ _ concatenates_S800000_S50000_S850000_d0 (ix1 e) rfl
      (ix1 ⟨e.val, h⟩) (fun b => match b with | ⟨0, _⟩ => rfl)).trans ?_

    refine (shapeCast_apply _ shapeCasts_S1x800000_S800000 (ix1 ⟨e.val, h⟩) (ix2 (0 : Fin 1) ⟨e.val, h⟩) ?_).trans ?_
    · rw [Shape.rowMajor_val_two, Shape.rowMajor_val_one]
      show 0 * 800000 + e.val = e.val
      omega

    exact extractStridedSlice_apply off ei hs (ix2 (0 : Fin 1) ⟨e.val, h⟩) (ix2 r ⟨e.val, h⟩)
      (fun a => match a with
        | ⟨0, _⟩ => by show r.val = off 0 + 0; omega
        | ⟨1, _⟩ => by show e.val = off 1 + e.val; omega)
  · rw [dif_neg h]
    have hlt : e.val - 800000 < 50000 := by have := e.isLt; omega

    refine (concatenate_pair_apply_right (t := S850000) (s₁ := S800000) (s₂ := S50000) (0 : Fin 1) _ _ concatenates_S800000_S50000_S850000_d0 (ix1 e) rfl rfl
      (ix1 ⟨e.val - 800000, hlt⟩) (fun b hb => absurd (Subsingleton.elim (α := Fin 1) _ _) hb) ?_).trans ?_
    · show e.val - 800000 + 800000 = e.val
      omega
    · rfl

theorem srcOf_apply (ei : IVec S2x800000 32) (e : Fin 850000) :
    srcOf ei (ix1 e)
      = if h : e.val < 800000 then ei (ix2 (0 : Fin 2) ⟨e.val, h⟩) else BitVec.ofNat 32 (e.val - 800000) :=
  extended_apply ei 0 ![0, 0] rfl rfl slices_S2x800000_S1x800000_0_0 e

theorem dstOf_apply (ei : IVec S2x800000 32) (e : Fin 850000) :
    dstOf ei (ix1 e)
      = if h : e.val < 800000 then ei (ix2 (1 : Fin 2) ⟨e.val, h⟩) else BitVec.ofNat 32 (e.val - 800000) :=
  extended_apply ei 1 ![1, 0] rfl rfl slices_S2x800000_S1x800000_1_0 e

theorem wrapOf_apply (v : IVec S850000 32) (e : Fin 850000) :
    wrapOf v (ix1 e) = if (v (ix1 e)).toInt < 0 then v (ix1 e) + 50000#32 else v (ix1 e) := by
  show (if BitVec.ofBool ((v (ix1 e)).slt 0#32) = 1#1 then v (ix1 e) + 50000#32 else v (ix1 e)) = _
  simp only [BitVec.slt, StableHlo.Predicate.ofBool_eq_one_iff, decide_eq_true_eq]
  rfl

theorem zeros_apply {T : Shape} (h : S_.BroadcastsInDim T ![]) (j : T.Idx) :
    broadcastInDim T ![] h (constant (F := Ideal) S_ .f32 0x00000000#32) j = ((0 : ℝ) : EReal) := by
  show Ideal.ofBits .f32 0x00000000#32 = _
  rw [Ideal.ofBits_zero_f32]; rfl

theorem ones_apply {T : Shape} (h : S_.BroadcastsInDim T ![]) (j : T.Idx) :
    broadcastInDim T ![] h (constant (F := Ideal) S_ .f32 0x3F800000#32) j = ((1 : ℝ) : EReal) := by
  show Ideal.ofBits .f32 0x3F800000#32 = _
  rw [Ideal.ofBits_one_f32]; rfl

theorem count_real {ι : Type} (S : Finset ι) (x : EReal) (f : ι → EReal) (hx : x = ((0 : ℝ) : EReal))
    (hf : ∀ i, f i = ((1 : ℝ) : EReal)) : ∃ r : ℝ, x + ∑ i ∈ S, f i = r :=
  ⟨S.card, by simp [hx, hf]⟩

theorem degOf_real (ei : IVec S2x800000 32) (n : Fin 50000) :
    ∃ r : ℝ, degOf (F := Ideal) ei (ix1 n) = (r : EReal) := by
  unfold degOf
  rw [Cert.Rgcn.Lib.scatterAdd_vec_apply scatter_S50000_S850000x1_S850000_n_0_0_1
    scatter_S50000_S850000x1_S850000_n_0_0_1_wf rfl]
  exact count_real _ _ _ (zeros_apply _ _) (fun e => ones_apply _ _)

theorem dinv_point (deg z : FVec Ideal S50000 .f32) (j : S50000.Idx) :
    select (cmpf (F := Ideal) .ogt deg z) (Host.rsqrt deg) z j
      = if z j < deg j then Ideal.rsqrt (deg j) else z j := by
  show (if BitVec.ofBool (decide (z j < deg j)) = 1#1 then Ideal.rsqrt (deg j) else z j) = _
  simp only [StableHlo.Predicate.ofBool_eq_one_iff, decide_eq_true_eq]

theorem dinvOf_real (ei : IVec S2x800000 32) (n : Fin 50000) :
    ∃ r : ℝ, dinvOf (F := Ideal) ei (ix1 n) = (r : EReal) := by
  obtain ⟨d, hd⟩ := degOf_real ei n
  unfold dinvOf
  rw [dinv_point, zeros_apply, hd]
  by_cases hpos : 0 < d
  · refine ⟨(Real.sqrt d)⁻¹, ?_⟩
    rw [if_pos (EReal.coe_lt_coe_iff.mpr hpos), Ideal.rsqrt_coe, if_neg (not_lt.mpr hpos.le), if_neg hpos.ne']
  · exact ⟨0, if_neg (fun h => hpos (EReal.coe_lt_coe_iff.mp h))⟩

theorem gathered_real (ei : IVec S2x800000 32) (idx : IVec S850000x1 32) (e : Fin 850000) :
    ∃ r : ℝ, Host.gather gather_S50000_S850000x1_S850000_n_0_n_n_0_1_1 (dinvOf (F := Ideal) ei) idx (ix1 e) = (r : EReal) := by
  rw [show Host.gather gather_S50000_S850000x1_S850000_n_0_n_n_0_1_1 (dinvOf (F := Ideal) ei) idx (ix1 e) = _ from
    Cert.LibGatherElem.gather_vec_apply (N := 50000) (R := 850000) (Nat.succ_pos _)
      gather_S50000_S850000x1_S850000_n_0_n_n_0_1_1_wf _ idx e]
  exact dinvOf_real ei _

theorem nrmOf_real (ei : IVec S2x800000 32) (e : Fin 850000) :
    ∃ r : ℝ, nrmOf (F := Ideal) ei (ix1 e) = (r : EReal) := by
  unfold nrmOf
  rw [mulf_apply]
  obtain ⟨a, ha⟩ := gathered_real ei (broadcastInDim S850000x1 ![0] bcast_S850000_S850000x1_0 (wrapOf (srcOf ei))) e
  obtain ⟨b, hb⟩ := gathered_real ei (broadcastInDim S850000x1 ![0] bcast_S850000_S850000x1_0 (wrapOf (dstOf ei))) e
  exact ⟨a * b, by rw [ha, hb, EReal.coe_mul]⟩

end Cert.GcnChain

end
-- ==== Proof.HostK.lean ====
import proofs.«413077_j6382321402034_1_alg».proof.Proof.Gen.KernelIdeal.Regions
import proofs.«413077_j6382321402034_1_alg».proof.Proof.Chain
import proofs.«413077_j6382321402034_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostK

open Idealize.ShloMosaic Idealize.ShloMosaic.TcCoe Idealize.ShloMosaic.ValueIdx
open Cert.KernelIdeal Cert.KernelIdeal.Gen Cert.GcnChain Cert.GcnSpec

variable {F : FTy → Type} [FloatOps F]

section Steps
variable (W : Valuation τ sig (Elt F))

def nrmW : FVec F S850000 .f32 :=
  mulf
    (Host.gather gather_S50000_S850000x1_S850000_n_0_n_n_0_1_1 (W main_v14 : FVec F S50000 .f32)
      (broadcastInDim S850000x1 ![0] bcast_S850000_S850000x1_0 (wrapOf (W main_v3 : IVec S850000 32))))
    (Host.gather gather_S50000_S850000x1_S850000_n_0_n_n_0_1_1 (W main_v14 : FVec F S50000 .f32)
      (broadcastInDim S850000x1 ![0] bcast_S850000_S850000x1_0 (wrapOf (W main_v6 : IVec S850000 32))))

theorem h2_v35 :
    (StableHlo.after (hostOps0_2 (F := F)) W main_v35 : FVec F S851968 .f32)
      = concatenate S851968 0 [⟨S850000, nrmW W⟩,
          ⟨S1968, broadcastInDim S1968 ![] bcast_S_S1968 (constant S_ .f32 0x00000000#32)⟩] concatenates_S850000_S1968_S851968_d0 := by
  dsimp only [hostOps0_2]
  after_results_simp
  rfl

end Steps

section Pads
variable {α : Type}

theorem cat1_apply (x : S850000.Idx → α) (z : S1968.Idx → α) (e : Fin 851968) :
    concatenate S851968 0 [⟨S850000, x⟩, ⟨S1968, z⟩] concatenates_S850000_S1968_S851968_d0 (ix1 e)
      = if h : e.val < 850000 then x (ix1 ⟨e.val, h⟩)
        else z (ix1 ⟨e.val - 850000, by have := e.isLt; omega⟩) := by
  by_cases h : e.val < 850000
  · rw [dif_pos h]
    exact concatenate_pair_apply_left 0 x z _ (ix1 e) rfl (ix1 ⟨e.val, h⟩)
      (fun b => by match b with | ⟨0, _⟩ => rfl)
  · rw [dif_neg h]
    refine concatenate_pair_apply_right 0 x z _ (ix1 e) rfl rfl (ix1 ⟨e.val - 850000, by have := e.isLt; omega⟩)
      (fun b hb => ?_) ?_
    · match b with | ⟨0, _⟩ => exact absurd rfl hb
    · show e.val - 850000 + 850000 = e.val
      omega

theorem cat2_apply (x : S50000x128.Idx → α) (z : S176x128.Idx → α) (r : Fin 50176) (k : Fin 128) :
    concatenate S50176x128 0 [⟨S50000x128, x⟩, ⟨S176x128, z⟩] concatenates_S50000x128_S176x128_S50176x128_d0 (ix2 r k)
      = if h : r.val < 50000 then x (ix2 ⟨r.val, h⟩ k)
        else z (ix2 ⟨r.val - 50000, by have := r.isLt; omega⟩ k) := by
  by_cases h : r.val < 50000
  · rw [dif_pos h]
    exact concatenate_pair_apply_left 0 x z _ (ix2 r k) rfl (ix2 ⟨r.val, h⟩ k)
      (fun b => by match b with | ⟨0, _⟩ => rfl | ⟨1, _⟩ => rfl)
  · rw [dif_neg h]
    refine concatenate_pair_apply_right 0 x z _ (ix2 r k) rfl rfl (ix2 ⟨r.val - 50000, by have := r.isLt; omega⟩ k)
      (fun b hb => ?_) ?_
    · match b with
      | ⟨0, _⟩ => exact absurd rfl hb
      | ⟨1, _⟩ => rfl
    · show r.val - 50000 + 50000 = r.val
      omega

end Pads

section Assembly
variable (m : (ℓ : Loc nD τ sig) → Buf (Elt F) ℓ)

theorem V2_v14 (c : Dev nD) :
    (V2 m c main_v14 : FVec F S50000 .f32) = dinvOf (m ((c : Thread nD τ).loc main_arg1)) := by
  dsimp only [V2, V1, hostOps0_1, hostOps0]
  after_results
  rfl
theorem V2_v3 (c : Dev nD) :
    (V2 m c main_v3 : IVec S850000 32) = srcOf (m ((c : Thread nD τ).loc main_arg1)) :=
  (V2_of m c main_v3 (by decide)).trans (by dsimp only [V1, hostOps0]; after_results; rfl)
theorem V2_v6 (c : Dev nD) :
    (V2 m c main_v6 : IVec S850000 32) = dstOf (m ((c : Thread nD τ).loc main_arg1)) :=
  (V2_of m c main_v6 (by decide)).trans (by dsimp only [V1, hostOps0]; after_results; rfl)

theorem nrmW_V2 (c : Dev nD) : nrmW (V2 m c) = nrmOf (m ((c : Thread nD τ).loc main_arg1)) := by
  unfold nrmW
  rw [V2_v14, V2_v3, V2_v6]
  rfl

theorem src_pad (c : Dev nD) :
    (fun e : Fin 851968 => (V3 m c main_v31 : IVec S851968 32) (ix1 e))
      = padW (fun e => srcOf (m ((c : Thread nD τ).loc main_arg1)) (ix1 e)) := by
  funext e
  show (StableHlo.after (hostOps0_2 (F := F)) (V2 m c) main_v31 : IVec S851968 32) (ix1 e) = _
  have hv := V2_v3 m c
  generalize V2 m c = W at hv ⊢
  dsimp only [hostOps0_2]
  after_results
  rw [hv, cat1_apply]
  unfold padW
  by_cases h : e.val < 850000
  · rw [dif_pos h, dif_pos h]
  · rw [dif_neg h, dif_neg h, broadcastInDim_scalar_apply, constantI_apply]

theorem dst_pad (c : Dev nD) :
    (fun e : Fin 851968 => (V3 m c main_v33 : IVec S851968 32) (ix1 e))
      = padW (fun e => dstOf (m ((c : Thread nD τ).loc main_arg1)) (ix1 e)) := by
  funext e
  show (StableHlo.after (hostOps0_2 (F := F)) (V2 m c) main_v33 : IVec S851968 32) (ix1 e) = _
  have hv := V2_v6 m c
  generalize V2 m c = W at hv ⊢
  dsimp only [hostOps0_2]
  after_results
  rw [hv, cat1_apply]
  unfold padW
  by_cases h : e.val < 850000
  · rw [dif_pos h, dif_pos h]
  · rw [dif_neg h, dif_neg h, broadcastInDim_scalar_apply, constantI_apply]

end Assembly

section AtIdeal
variable (m : (ℓ : Loc nD τ sig) → Buf (Elt Ideal) ℓ)

theorem nrm_pad (c : Dev nD) :
    (fun e : Fin 851968 => (V3 (F := Ideal) m c main_v35 : FVec Ideal S851968 .f32) (ix1 e))
      = padR (fun e => nrmOf (F := Ideal) (m ((c : Thread nD τ).loc main_arg1)) (ix1 e)) := by
  funext e
  show (StableHlo.after (hostOps0_2 (F := Ideal)) (V2 m c) main_v35 : FVec Ideal S851968 .f32) (ix1 e) = _
  rw [h2_v35, nrmW_V2, cat1_apply]
  unfold padR
  by_cases h : e.val < 850000
  · rw [dif_pos h, dif_pos h]
  · rw [dif_neg h, dif_neg h, broadcastInDim_scalar_apply, constant_apply, Ideal.ofBits_zero_f32]

theorem x_pad (c : Dev nD) :
    (fun (r : Fin 50176) (k : Fin 128) => (V3 (F := Ideal) m c main_v38 : FVec Ideal S50176x128 .bf16) (ix2 r k))
      = padX (fun r k => (m ((c : Thread nD τ).loc main_arg0) : FVec Ideal S50000x128 .f32) (ix2 r k)) := by
  funext r k
  show (StableHlo.after (hostOps0_2 (F := Ideal)) (V2 m c) main_v38 : FVec Ideal S50176x128 .bf16) (ix2 r k) = _
  have hx : (V2 m c main_arg0 : FVec Ideal S50000x128 .f32) = m ((c : Thread nD τ).loc main_arg0) :=
    (V2_of m c main_arg0 (by decide)).trans ((V1_of m c main_arg0 (by decide)).trans rfl)
  generalize V2 m c = W at hx ⊢
  dsimp only [hostOps0_2]
  after_results
  rw [hx, cat2_apply]
  unfold padX
  by_cases h : r.val < 50000
  · rw [dif_pos h, dif_pos h, truncf_apply]
  · rw [dif_neg h, dif_neg h, broadcastInDim_scalar_apply, constant_apply, Ideal.ofBits_zero_bf16]

theorem wt_eq (outs : Outs (F := Ideal)) (c : Dev nD) (k j : Fin 128) :
    (V6 (F := Ideal) m outs c main_v42 : FVec Ideal S128x128 .bf16) (ix2 k j)
      = (m ((c : Thread nD τ).loc main_arg2) : FVec Ideal S128x128 .f32) (ix2 j k) := by
  show (StableHlo.after (hostOps2 (F := Ideal)) (V5 m outs c) main_v42 : FVec Ideal S128x128 .bf16) (ix2 k j) = _
  have hw : (V5 m outs c main_arg2 : FVec Ideal S128x128 .f32) = m ((c : Thread nD τ).loc main_arg2) :=
    (V6_of m outs c _ (by decide)).symm.trans ((V7_of m outs c _ (by decide)).symm.trans (V7_main_arg2 m outs c))
  generalize V5 m outs c = W at hw ⊢
  dsimp only [hostOps2]
  after_results
  rw [hw, truncf_apply]
  exact transpose_apply [1, 0] _ _ (ix2 k j) (ix2 j k) (fun b => by match b with | ⟨0, _⟩ => rfl | ⟨1, _⟩ => rfl)

end AtIdeal

end Cert.KernelIdeal.HostK

end
-- ==== Proof.RefSide.lean ====
import proofs.«413077_j6382321402034_1_alg».proof.Proof.RefRead
import proofs.«413077_j6382321402034_1_alg».proof.Proof.Spec
import proofs.«413077_j6382321402034_1_alg».proof.Proof.LibIndexed
import proofs.«413077_j6382321402034_1_alg».proof.Proof.Chain
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.ReadP Idealize.ShloMosaic Idealize.ShloMosaic.ValueIdx
open Cert.GcnSpec Cert.GcnChain

def rowOf (ei : IVec S2x800000 32) (e : Fin 850000) : Fin 50000 :=
  ⟨min ((wrapOf (srcOf ei)) (ix1 e)).toInt.toNat 49999, by omega⟩

section stages
variable (a0 : FVec Ideal S50000x128 .f32) (a1 : IVec S2x800000 32) (a2 : FVec Ideal S128x128 .f32)
  (a3 a4 a5 : FVec Ideal S128 .f32)

theorem v46_at (n : Fin 50000) (k : Fin 128) : val_main_v46 (F := Ideal) a3 (ix2 n k) = a3 (ix1 k) := by
  rw [val_main_v46_apply, val_main_v45_apply]
  exact congrArg a3 ((eq_ix1 _).trans rfl)

theorem v68_at (n : Fin 50000) (k : Fin 128) : val_main_v68 (F := Ideal) a4 (ix2 n k) = a4 (ix1 k) := v46_at a4 n k

theorem v71_at (n : Fin 50000) (k : Fin 128) : val_main_v71 (F := Ideal) a5 (ix2 n k) = a5 (ix1 k) := v46_at a5 n k

theorem v48_at (n : Fin 50000) (k : Fin 128) :
    val_main_v48 (F := Ideal) a0 a1 a2 a3 (ix2 n k)
      = max (val_main_v44 (F := Ideal) a0 a1 a2 (ix2 n k) + a3 (ix1 k)) 0 := by
  rw [val_main_v48_apply, val_main_v47_apply, v46_at, val_main_call1_v0_apply, val_main_call1_cst_apply,
    Ideal.maximumf_def, Ideal.addf_def, Ideal.ofBits_def, Ideal.ofBits_zero_f32]

theorem v52_at (n : Fin 50000) :
    val_main_v52 (F := Ideal) a0 a1 a2 a3 (ix2 n (0 : Fin 1))
      = Ideal.div (∑ k : Fin 128, val_main_v48 (F := Ideal) a0 a1 a2 a3 (ix2 n k)) c128 := by
  rw [val_main_v52_apply, val_main_v50_apply, val_main_v49_apply, val_main_v51_apply, val_main_cst_10_apply,
    val_main_cst_9_apply, Ideal.hostDivf_def, Ideal.ofBits_def, Ideal.ofBits_def, Ideal.ofBits_zero_f32, zero_add]
  refine congrArg (fun s => Ideal.div s c128) ?_
  exact Finset.sum_congr rfl fun k _ => congrArg _ ((eq_ix2 _).trans rfl)

theorem v53_at (n : Fin 50000) (k : Fin 128) :
    val_main_v53 (F := Ideal) a0 a1 a2 a3 (ix2 n k) = val_main_v52 (F := Ideal) a0 a1 a2 a3 (ix2 n (0 : Fin 1)) := by
  rw [val_main_v53_apply]
  exact congrArg _ ((eq_ix2 _).trans rfl)

theorem v60_at (n : Fin 50000) (k : Fin 128) :
    val_main_v60 (F := Ideal) a0 a1 a2 a3 (ix2 n k) = val_main_v52 (F := Ideal) a0 a1 a2 a3 (ix2 n (0 : Fin 1)) :=
  v53_at a0 a1 a2 a3 n k

theorem v59_at (n : Fin 50000) :
    val_main_v59 (F := Ideal) a0 a1 a2 a3 (ix2 n (0 : Fin 1))
      = Ideal.div (∑ k : Fin 128,
            (val_main_v48 (F := Ideal) a0 a1 a2 a3 (ix2 n k) - val_main_v52 (F := Ideal) a0 a1 a2 a3 (ix2 n (0 : Fin 1)))
          * (val_main_v48 (F := Ideal) a0 a1 a2 a3 (ix2 n k) - val_main_v52 (F := Ideal) a0 a1 a2 a3 (ix2 n (0 : Fin 1))))
          c128 := by
  rw [val_main_v59_apply, val_main_v57_apply, val_main_v56_apply, val_main_v58_apply, val_main_cst_12_apply,
    val_main_cst_11_apply, Ideal.hostDivf_def, Ideal.ofBits_def, Ideal.ofBits_def, Ideal.ofBits_zero_f32, zero_add]
  refine congrArg (fun s => Ideal.div s c128) ?_
  refine Finset.sum_congr rfl fun k _ => ?_
  rw [show idx_main_v56 (idx_main_v57 (ix2 n (0 : Fin 1))) k = ix2 n k from (eq_ix2 _).trans rfl,
    val_main_v55_apply, val_main_v54_apply, v53_at, Ideal.mulf_def, Ideal.subf_def]

theorem v65_at (n : Fin 50000) (k : Fin 128) :
    val_main_v65 (F := Ideal) a0 a1 a2 a3 (ix2 n k)
      = Ideal.rsqrt (val_main_v59 (F := Ideal) a0 a1 a2 a3 (ix2 n (0 : Fin 1)) + epsLN) := by
  rw [val_main_v65_apply,
    show idx_main_v65 (ix2 n k) = ix2 n (0 : Fin 1) from (eq_ix2 _).trans rfl,
    val_main_v64_apply, val_main_v63_apply, val_main_v62_apply, val_main_cst_13_apply,
    Ideal.hostUnary_rsqrt_def, Ideal.addf_def, Ideal.ofBits_def]
  rfl

theorem tail_at (n : Fin 50000) (j : Fin 128) :
    val_main_v72 (F := Ideal) a0 a1 a2 a3 a4 a5 (ix2 n j)
      = lnRelu (fun j' => val_main_v44 (F := Ideal) a0 a1 a2 (ix2 n j') + a3 (ix1 j'))
          (fun j => a4 (ix1 j)) (fun j => a5 (ix1 j)) j := by
  rw [val_main_v72_apply, val_main_v69_apply, val_main_v66_apply, val_main_v61_apply, v60_at, v65_at, v68_at, v71_at,
    Ideal.addf_def, Ideal.mulf_def, Ideal.mulf_def, Ideal.subf_def, v59_at, v52_at]
  simp only [v48_at]
  unfold lnRelu lnRow mean relu
  rfl

theorem v31_at (r : Fin 50000) (k : Fin 128) :
    val_main_v31 (F := Ideal) a0 a2 (ix2 r k) = ∑ k' : Fin 128, a0 (ix2 r k') * a2 (ix2 k k') := by
  rw [val_main_v31_apply]
  refine Finset.sum_congr rfl fun k' _ => ?_
  rw [val_main_v30_apply]
  exact congrArg₂ (fun u v => a0 u * a2 v) ((eq_ix2 _).trans rfl) ((eq_ix2 _).trans rfl)

theorem v38_at (e : Fin 850000) (k : Fin 128) :
    val_main_v38 (F := Ideal) a0 a1 a2 (ix2 e k) = val_main_v31 (F := Ideal) a0 a2 (ix2 (rowOf a1 e) k) := by
  unfold val_main_v38
  refine (Cert.Rgcn.Lib.gather_rows_apply (N := 50000) (K := 128) (R := 850000) (w := 32) (by decide)
    gather_S50000x128_S850000x1_S850000x128_1_0_n_n_0_1_1128_wf
    (val_main_v31 (F := Ideal) a0 a2) (val_main_v37 (F := Ideal) a1) e k).trans ?_
  refine congrArg _ (congrArg (fun r => ix2 r k) (Fin.ext ?_))
  show min (val_main_v37 (F := Ideal) a1 (ix2 e (0 : Fin 1))).toInt.toNat (50000 - 1) = min (val_main_v36 (F := Ideal) a1 (ix1 e)).toInt.toNat 49999
  rw [val_main_v37_apply, show idx_main_v37 (ix2 e (0 : Fin 1)) = ix1 e from (eq_ix1 _).trans rfl]

theorem v41_at (e : Fin 850000) (k : Fin 128) :
    val_main_v41 (F := Ideal) a0 a1 a2 (ix2 e k)
      = (∑ k' : Fin 128, a0 (ix2 (rowOf a1 e) k') * a2 (ix2 k k')) * val_main_v29 (F := Ideal) a1 (ix1 e) := by
  rw [val_main_v41_apply, v38_at, v31_at, val_main_v40_apply, val_main_v39_apply, Ideal.mulf_def,
    show idx_main_v39 (idx_main_v40 (ix2 e k)) = ix1 e from (eq_ix1 _).trans rfl]

theorem v44_at (n : Fin 50000) (k : Fin 128) :
    val_main_v44 (F := Ideal) a0 a1 a2 (ix2 n k)
      = ∑ e ∈ Finset.univ.filter (fun e : Fin 850000 => (val_main_v6 (F := Ideal) a1 (ix1 e)).toInt = (n.val : ℤ)),
          (∑ k' : Fin 128, a0 (ix2 (rowOf a1 e) k') * a2 (ix2 k k')) * val_main_v29 (F := Ideal) a1 (ix1 e) := by
  unfold val_main_v44
  refine (Cert.Rgcn.Lib.scatterAdd_rows_apply (N := 50000) (K := 128) (E := 850000) (w := 32)
    scatter_S50000x128_S850000x1_S850000x128_1_0_0_1 scatter_S50000x128_S850000x1_S850000x128_1_0_0_1_wf rfl
    (val_main_v42 (F := Ideal)) (val_main_v43 (F := Ideal) a1) (val_main_v41 (F := Ideal) a0 a1 a2) n k).trans ?_
  rw [val_main_v42_apply, val_main_cst_8_apply, Ideal.ofBits_def, Ideal.ofBits_zero_f32, zero_add]
  have hw : ∀ e : Fin 850000, val_main_v43 (F := Ideal) a1 (ix2 e (0 : Fin 1)) = val_main_v6 (F := Ideal) a1 (ix1 e) := by
    intro e
    rw [val_main_v43_apply]
    exact congrArg _ ((eq_ix1 _).trans rfl)
  simp only [hw, v41_at]

end stages

section chain
variable {F : FTy → Type} [FloatOps F]

theorem v6_eq (a1 : IVec S2x800000 32) : val_main_v6 (F := F) a1 = dstOf a1 := rfl

theorem v29_eq (a1 : IVec S2x800000 32) : val_main_v29 (F := F) a1 = nrmOf (F := F) a1 := rfl

end chain

theorem ref_rows (a0 : FVec Ideal S50000x128 .f32) (a1 : IVec S2x800000 32) (a2 : FVec Ideal S128x128 .f32)
    (a3 a4 a5 : FVec Ideal S128 .f32) (n : Fin 50000) (j : Fin 128) :
    val_main_v72 (F := Ideal) a0 a1 a2 a3 a4 a5 (ix2 n j)
      = refOut (rowOf a1) (fun e => dstOf a1 (ix1 e))
          (fun e => nrmOf (F := Ideal) a1 (ix1 e))
          (fun r k => a0 (ix2 r k)) (fun k j => a2 (ix2 j k)) (fun j => a3 (ix1 j)) (fun j => a4 (ix1 j))
          (fun j => a5 (ix1 j)) n j := by
  rw [tail_at]
  unfold refOut
  simp only [v44_at, v6_eq (F := Ideal) a1, v29_eq (F := Ideal) a1]
  rfl

end Cert.ReferenceIdeal.RefSide

end
-- ==== Proof.Algebra.lean ====
import proofs.«413077_j6382321402034_1_alg».proof.Proof.Spec
import Idealize.ShloMosaic.Lib.StableHlo.Predicate
import Mathlib.Algebra.BigOperators.Fin
import Mathlib.Data.EReal.Basic
import Mathlib.Tactic.Ring

noncomputable section

namespace Cert.GcnAlgebra

open Cert.GcnSpec

theorem word_names (w : BitVec 32) (n : ℕ) (hn : n < 2 ^ 31) :
    w = BitVec.ofNat 32 n ↔ w.toInt = (n : ℤ) := by
  rw [← BitVec.toInt_inj, Idealize.ShloMosaic.StableHlo.Predicate.toInt_ofNat_small n hn]

theorem sum_pad {M : Type*} [AddCommMonoid M] {m n : ℕ} (hmn : m ≤ n) (g : Fin m → M) :
    ∑ e : Fin n, (if h : e.val < m then g ⟨e.val, h⟩ else 0) = ∑ e : Fin m, g e := by
  obtain ⟨d, rfl⟩ := Nat.exists_eq_add_of_le hmn
  simp [Fin.sum_univ_add]

theorem lookup_row (x : Fin 50000 → Fin 128 → EReal) (a : Fin 50000) (k : Fin 128) :
    ∑ r : Fin 50176, hit (BitVec.ofNat 32 a.val) (BitVec.ofNat 32 r.val) * padX x r k = x a k := by
  have ha := a.isLt
  rw [Finset.sum_eq_single_of_mem (Fin.castLE (by decide) a : Fin 50176) (Finset.mem_univ _)]
  · simp [hit, padX, ha]
  · intro r _ hr
    have hr' := r.isLt
    rw [hit, if_neg, zero_mul]
    intro h
    have h' := congrArg BitVec.toNat h
    rw [BitVec.toNat_ofNat, BitVec.toNat_ofNat] at h'
    exact hr (Fin.ext (by show r.val = a.val; omega))

theorem scatterK_pad (src dst : Fin 850000 → BitVec 32) (s : Fin 850000 → Fin 50000)
    (hs : ∀ e, src e = BitVec.ofNat 32 (s e).val) (nrm : Fin 850000 → EReal)
    (x : Fin 50000 → Fin 128 → EReal) (n : Fin 50000) (k : Fin 128) :
    scatterK (padW dst) (gatherK (padW src) (padR nrm) (padX x)) (Fin.castLE (by decide) n) k
      = ∑ e ∈ Finset.univ.filter (fun e : Fin 850000 => (dst e).toInt = (n.val : ℤ)),
          x (s e) k * nrm e := by
  have hn : n.val < 2 ^ 31 := by have := n.isLt; omega
  refine Eq.trans ?_ ((sum_pad (by decide : 850000 ≤ 851968) _).trans (Finset.sum_filter _ _).symm)
  refine Finset.sum_congr rfl fun e _ => ?_
  by_cases h : e.val < 850000
  · simp only [gatherK, padW, padR, dif_pos h, hs, lookup_row]
    simp only [hit, Fin.coe_castLE, word_names _ _ hn, ite_mul, one_mul, zero_mul]
  · simp only [gatherK, padR, dif_neg h, mul_zero]

theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

theorem exchange {ι κ : Type*} (A : Finset ι) (K : Finset κ) (X : ι → κ → ℝ) (N : ι → ℝ) (W : κ → ℝ) :
    ∑ k ∈ K, (∑ e ∈ A, (X e k : EReal) * (N e : EReal)) * (W k : EReal)
      = ∑ e ∈ A, (∑ k ∈ K, (X e k : EReal) * (W k : EReal)) * (N e : EReal) := by
  simp only [← EReal.coe_mul, ← coe_sum]
  congr 1
  simp only [Finset.sum_mul]
  rw [Finset.sum_comm]
  refine Finset.sum_congr rfl (fun e _ => Finset.sum_congr rfl (fun k _ => ?_))
  ring

theorem kernel_eq_ref
    (src dst : Fin 850000 → BitVec 32) (s : Fin 850000 → Fin 50000)
    (hs : ∀ e, src e = BitVec.ofNat 32 (s e).val)
    (nrm : Fin 850000 → EReal) (hn : ∀ e, ∃ r : ℝ, nrm e = (r : EReal))
    (x : Fin 50000 → Fin 128 → EReal) (hx : ∀ r k, ∃ v : ℝ, x r k = (v : EReal))
    (wt : Fin 128 → Fin 128 → EReal) (hw : ∀ k j, ∃ v : ℝ, wt k j = (v : EReal))
    (b γ β : Fin 128 → EReal) (n : Fin 50000) (j : Fin 128) :
    finK (scatterK (padW dst) (gatherK (padW src) (padR nrm) (padX x))) wt b γ β n j
      = refOut s dst nrm x wt b γ β n j := by
  choose X hX using hx
  choose Nr hN using hn
  choose W hW using hw
  unfold finK refOut
  simp only [scatterK_pad src dst s hs nrm x n, hX, hN, hW,
    exchange _ _ (fun e k => X (s e) k) Nr (fun k => W k _)]

end Cert.GcnAlgebra

end
-- ==== Proof.PreFacts.lean ====
import proofs.«413077_j6382321402034_1_alg».proof.Pre_finite_inputs
import proofs.«413077_j6382321402034_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal

noncomputable section

namespace Cert.PreFacts

open Idealize.ShloMosaic Idealize.ShloMosaic.ValueIdx
open Cert.Pre_finite_inputs

instance : Subsingleton S_.Idx := ⟨fun a b => funext fun d => d.elim0⟩

theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have ht : Ideal.ofBits .f32 0x7F800000#32 = (⊤ : EReal) := by simp [Ideal.ofBits, Ideal.ieee]
  have h1 : BitVec.ofBool (decide (max x (-x) < Ideal.ofBits .f32 0x7F800000#32)) = 1#1 := h
  rw [ht, StableHlo.Predicate.ofBool_eq_one_iff, decide_eq_true_eq] at h1
  induction x using EReal.rec with
  | bot => simp at h1
  | coe r => exact ⟨r, rfl⟩
  | top => simp at h1

theorem word_range (w : BitVec 32) (h0 : IntOp.cmpi .sge w 0#32 = 1#1) (h1 : IntOp.cmpi .slt w 50000#32 = 1#1) :
    0 ≤ w.toInt ∧ w.toInt < 50000 := by
  have h0' : BitVec.ofBool ((0#32 : BitVec 32).sle w) = 1#1 := h0
  have h1' : BitVec.ofBool (w.slt 50000#32) = 1#1 := h1
  rw [StableHlo.Predicate.ofBool_eq_one_iff] at h0' h1'
  simp only [BitVec.sle, BitVec.slt, decide_eq_true_eq] at h0' h1'
  exact ⟨h0', h1'⟩

theorem named_of_range (w : BitVec 32) (h0 : 0 ≤ w.toInt) (h1 : w.toInt < 50000) :
    ∃ s : Fin 50000, w = BitVec.ofNat 32 s.val ∧ ¬ w.toInt < 0 ∧ min w.toInt.toNat 49999 = s.val := by
  refine ⟨⟨w.toInt.toNat, by omega⟩, ?_, by omega, by show min w.toInt.toNat 49999 = w.toInt.toNat; omega⟩
  show w = BitVec.ofNat 32 w.toInt.toNat
  rw [← BitVec.ofInt_natCast, Int.toNat_of_nonneg h0, BitVec.ofInt_toInt]

variable [Cert.Pre_finite_inputs.Facts]
variable {a0 : FVec Ideal S50000x128 .f32} {a1 : IVec S2x800000 32} {a2 : FVec Ideal S128x128 .f32}
  {a3 a4 a5 : FVec Ideal S128 .f32}

theorem srcRow_apply (k : Fin 800000) :
    shapeCast S800000 (extractStridedSlice S1x800000 ![0, 0] a1 Facts.slices_S2x800000_S1x800000_0_0)
        Facts.shapeCasts_S1x800000_S800000 (ix1 k)
      = a1 (ix2 (0 : Fin 2) k) := by
  refine (shapeCast_apply _ Facts.shapeCasts_S1x800000_S800000 (ix1 k) (ix2 (0 : Fin 1) k) ?_).trans
    (extractStridedSlice_apply ![0, 0] a1 Facts.slices_S2x800000_S1x800000_0_0 (ix2 (0 : Fin 1) k) (ix2 (0 : Fin 2) k) ?_)
  · rw [Shape.rowMajor_val_two, Shape.rowMajor_val_one]
    show (0 : Nat) * 800000 + k.val = k.val
    omega
  · intro a
    match a with
    | ⟨0, _⟩ => rfl
    | ⟨1, _⟩ => exact (Nat.zero_add _).symm

variable (h : fn (F := Ideal) a0 a1 a2 a3 a4 a5 = fun _ => 1#1)
include h

theorem clauses :
    (∀ i, ∃ r : ℝ, a0 i = (r : EReal)) ∧ (∀ i, ∃ r : ℝ, a2 i = (r : EReal))
      ∧ (∀ k : Fin 800000, 0 ≤ (a1 (ix2 (0 : Fin 2) k)).toInt ∧ (a1 (ix2 (0 : Fin 2) k)).toInt < 50000) := by
  have e := congrFun h ix0
  dsimp only [fn, fn_part1] at e
  have e' : IntOp.andi (IntOp.andi (IntOp.andi (IntOp.andi (IntOp.andi _ _) _) _) _) _ = 1#1 := e
  simp only [IntOp.andi_eq_one] at e'
  obtain ⟨⟨⟨⟨⟨h0, h2⟩, -⟩, -⟩, -⟩, h1⟩ := e'
  refine ⟨fun i => real_of_abs_lt_top _ (Host.reduce_andi_all _ _ _ _ _ h0 i),
    fun i => real_of_abs_lt_top _ (Host.reduce_andi_all _ _ _ _ _ h2 i), fun k => ?_⟩
  have hk := Host.reduce_andi_all _ _ _ _ _ h1 (ix1 k)
  have hk' : IntOp.andi (IntOp.cmpi .sge _ 0#32) (IntOp.cmpi .slt _ 50000#32) = 1#1 := hk
  rw [srcRow_apply, IntOp.andi_eq_one] at hk'
  exact word_range _ hk'.1 hk'.2

theorem x_real : ∀ i, ∃ r : ℝ, a0 i = (r : EReal) :=
  (clauses h).1

theorem w_real : ∀ i, ∃ r : ℝ, a2 i = (r : EReal) :=
  (clauses h).2.1

theorem src_range :
    ∀ e : Fin 800000, 0 ≤ (a1 (ix2 (0 : Fin 2) e)).toInt ∧ (a1 (ix2 (0 : Fin 2) e)).toInt < 50000 :=
  (clauses h).2.2

end Cert.PreFacts

end
-- ==== Proof.PreNamed.lean ====
import proofs.«413077_j6382321402034_1_alg».proof.Proof.PreFacts
import proofs.«413077_j6382321402034_1_alg».proof.Proof.Chain

noncomputable section

namespace Cert.PreFacts

open Idealize.ShloMosaic Idealize.ShloMosaic.ValueIdx
open Cert.Pre_finite_inputs Cert.GcnChain

variable [Cert.Pre_finite_inputs.Facts]
variable {a0 : FVec Ideal S50000x128 .f32} {a1 : IVec S2x800000 32} {a2 : FVec Ideal S128x128 .f32}
  {a3 a4 a5 : FVec Ideal S128 .f32}

theorem src_named (h : fn (F := Ideal) a0 a1 a2 a3 a4 a5 = fun _ => 1#1) :
    ∀ e : Fin 850000, ∃ s : Fin 50000, srcOf a1 (ix1 e) = BitVec.ofNat 32 s.val
      ∧ min ((wrapOf (srcOf a1)) (ix1 e)).toInt.toNat 49999 = s.val := by
  intro e
  have hr : 0 ≤ (srcOf a1 (ix1 e)).toInt ∧ (srcOf a1 (ix1 e)).toInt < 50000 := by
    rw [srcOf_apply]
    split
    · next hlt => exact src_range h ⟨e.val, hlt⟩
    · have := e.isLt
      rw [StableHlo.Predicate.toInt_ofNat_small _ (by omega)]
      omega
  obtain ⟨s, hs, hneg, hmin⟩ := named_of_range _ hr.1 hr.2
  exact ⟨s, hs, by rw [wrapOf_apply, if_neg hneg]; exact hmin⟩

end Cert.PreFacts

end
-- ==== Proof.Final.lean ====
import proofs.«413077_j6382321402034_1_alg».proof.Proof.Segs
import proofs.«413077_j6382321402034_1_alg».proof.Proof.R0Value
import proofs.«413077_j6382321402034_1_alg».proof.Proof.R1Value
import proofs.«413077_j6382321402034_1_alg».proof.Proof.R2Value
import proofs.«413077_j6382321402034_1_alg».proof.Proof.R2Pay
import proofs.«413077_j6382321402034_1_alg».proof.Proof.HostK
import proofs.«413077_j6382321402034_1_alg».proof.Proof.Chain
import proofs.«413077_j6382321402034_1_alg».proof.Proof.RefSide
import proofs.«413077_j6382321402034_1_alg».proof.Proof.Algebra
import proofs.«413077_j6382321402034_1_alg».proof.Proof.PreFacts
import proofs.«413077_j6382321402034_1_alg».proof.Proof.PreNamed

noncomputable section

namespace Cert.Proof.Final
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Seg Cert.GcnSpec Cert.GcnChain

variable (m : (ℓ : Loc nD τ sig) → Buf (Elt Ideal) ℓ)

abbrev xA (c : Dev nD) : FVec Ideal S50000x128 .f32 := m ((c : Thread nD τ).loc main_arg0)
abbrev eiA (c : Dev nD) : IVec S2x800000 32 := m ((c : Thread nD τ).loc main_arg1)
abbrev wA (c : Dev nD) : FVec Ideal S128x128 .f32 := m ((c : Thread nD τ).loc main_arg2)
abbrev bA (c : Dev nD) : FVec Ideal S128 .f32 := m ((c : Thread nD τ).loc main_arg3)
abbrev gA (c : Dev nD) : FVec Ideal S128 .f32 := m ((c : Thread nD τ).loc main_arg4)
abbrev betaA (c : Dev nD) : FVec Ideal S128 .f32 := m ((c : Thread nD τ).loc main_arg5)

abbrev srcP (c : Dev nD) : Fin 851968 → BitVec 32 := padW (fun e => srcOf (eiA m c) (ix1 e))
abbrev dstP (c : Dev nD) : Fin 851968 → BitVec 32 := padW (fun e => dstOf (eiA m c) (ix1 e))
abbrev nrmP (c : Dev nD) : Fin 851968 → EReal := padR (fun e => nrmOf (F := Ideal) (eiA m c) (ix1 e))
abbrev xP (c : Dev nD) : Fin 50176 → Fin 128 → EReal := padX (fun r k => xA m c (ix2 r k))

theorem msgs_rows (c : Dev nD) (e : Fin 851968) (k : Fin 128) :
    (o4 m c : FVec Ideal S851968x128 .bf16) (ix2 e k) = gatherK (srcP m c) (nrmP m c) (xP m c) e k := by
  unfold o4
  refine (Val0.msgs_eq (E0 m) c e k).trans ?_
  show gatherK (fun e => (V3 m c main_v31 : IVec S851968 32) (ix1 e)) (fun e => (V3 m c main_v35 : FVec Ideal S851968 .f32) (ix1 e))
      (fun r k => (V3 m c main_v38 : FVec Ideal S50176x128 .bf16) (ix2 r k)) e k = _
  rw [HostK.src_pad m c, HostK.nrm_pad m c, HostK.x_pad m c]

theorem agg_rows (c : Dev nD) (n : Fin 50176) (k : Fin 128) :
    (o5 m c : FVec Ideal S50176x128 .f32) (ix2 n k)
      = scatterK (dstP m c) (gatherK (srcP m c) (nrmP m c) (xP m c)) n k := by
  unfold o5
  refine (Val1.agg_eq (E1 m) c n k).trans ?_
  have h33 : E1 m c main_v33 = E0 m c main_v33 := E1_of_ne m c main_v33 (by decide)
  have hmsg : (fun (e : Fin 851968) (k : Fin 128) => (E1 m c main_v39 : FVec Ideal S851968x128 .bf16) (ix2 e k))
      = gatherK (srcP m c) (nrmP m c) (xP m c) := by
    funext e k; rw [E1_v39]; exact msgs_rows m c e k
  show scatterK (fun e => (E1 m c main_v33 : IVec S851968 32) (ix1 e))
      (fun e k => (E1 m c main_v39 : FVec Ideal S851968x128 .bf16) (ix2 e k)) n k = _
  rw [hmsg, h33]
  show scatterK (fun e => (V3 m c main_v33 : IVec S851968 32) (ix1 e)) _ n k = _
  rw [HostK.dst_pad m c]

def aggA (c : Dev nD) : Vec Ideal S50176x128 .f32 := E2 m c main_v40
def wtA (c : Dev nD) : Vec Ideal S128x128 .bf16 := E2 m c main_v42
def b2A (c : Dev nD) : Vec Ideal S128 .f32 := E2 m c main_arg3
def g2A (c : Dev nD) : Vec Ideal S128 .f32 := E2 m c main_arg4
def be2A (c : Dev nD) : Vec Ideal S128 .f32 := E2 m c main_arg5

theorem aggA_rows (c : Dev nD) (n : Fin 50176) (k : Fin 128) :
    aggA m c (ix2 n k) = scatterK (dstP m c) (gatherK (srcP m c) (nrmP m c) (xP m c)) n k := by
  have h : aggA m c = (o5 m c : Vec Ideal S50176x128 .f32) := E2_v40 m c
  rw [h]; exact agg_rows m c n k
theorem wtA_at (c : Dev nD) (k j' : Fin 128) : wtA m c (ix2 k j') = wA m c (ix2 j' k) := by
  have h : wtA m c = (Gen.V6 m (outs m) c main_v42 : Vec Ideal S128x128 .bf16) := E2_v42 m c
  rw [h]; exact HostK.wt_eq m _ c k j'
theorem b2A_eq (c : Dev nD) : b2A m c = bA m c := E2_arg3 m c
theorem g2A_eq (c : Dev nD) : g2A m c = gA m c := E2_arg4 m c
theorem be2A_eq (c : Dev nD) : be2A m c = betaA m c := E2_arg5 m c

theorem layer_rows (c : Dev nD) (n : Fin 50000) (j : Fin 128) :
    (o7 m c : FVec Ideal S50000x128 .f32) (ix2 n j)
      = finK (scatterK (dstP m c) (gatherK (srcP m c) (nrmP m c) (xP m c)))
          (fun k j => wA m c (ix2 j k)) (fun j => bA m c (ix1 j)) (fun j => gA m c (ix1 j)) (fun j => betaA m c (ix1 j)) n j := by
  unfold o7
  refine (Val2.out_rows (E2 m) c n j).trans ?_
  show k2_pay1 (F := Ideal) (fun y => aggA m c (ix2 ⟨5000 * (n.val / 5000) + (y 0).val, Val2.row_lt n (y 0)⟩ (y 1)))
      (wtA m c) (b2A m c) (g2A m c) (be2A m c) (ix2 ⟨n.val % 5000, Nat.mod_lt _ (by decide)⟩ j) = _
  rw [Val2P.pay_fin_apply]
  unfold finK

  have hn : ∀ h, (⟨5000 * (n.val / 5000) + n.val % 5000, h⟩ : Fin 50176) = Fin.castLE (by decide) n :=
    fun _ => Fin.ext (Nat.div_add_mod n.val 5000)
  show lnRelu
      (fun j' => (∑ k : Fin 128, aggA m c (ix2 ⟨5000 * (n.val / 5000) + n.val % 5000, _⟩ k) * wtA m c (ix2 k j'))
        + b2A m c (ix1 j'))
      (fun j' => g2A m c (ix1 j')) (fun j' => be2A m c (ix1 j')) j = _
  simp only [hn, aggA_rows, wtA_at, b2A_eq, g2A_eq, be2A_eq]

theorem rows_agree [Cert.Pre_finite_inputs.Facts] (c : Dev nD)
    (hpre : Cert.Pre_finite_inputs.fn (F := Ideal) (xA m c) (eiA m c) (wA m c) (bA m c) (gA m c) (betaA m c) = fun _ => 1#1)
    (n : Fin 50000) (j : Fin 128) :
    Cert.ReferenceIdeal.ReadP.val_main_v72 (F := Ideal) (xA m c) (eiA m c) (wA m c) (bA m c) (gA m c) (betaA m c) (ix2 n j)
      = (o7 m c : FVec Ideal S50000x128 .f32) (ix2 n j) := by
  rw [layer_rows, Cert.ReferenceIdeal.RefSide.ref_rows]
  choose s hs hrow using Cert.PreFacts.src_named hpre
  have hrowOf : Cert.ReferenceIdeal.RefSide.rowOf (eiA m c) = s := funext fun e => Fin.ext (hrow e)
  rw [hrowOf]
  exact (Cert.GcnAlgebra.kernel_eq_ref (fun e => srcOf (eiA m c) (ix1 e)) (fun e => dstOf (eiA m c) (ix1 e)) s hs
    (fun e => nrmOf (F := Ideal) (eiA m c) (ix1 e)) (fun e => nrmOf_real _ e)
    (fun r k => xA m c (ix2 r k)) (fun r k => Cert.PreFacts.x_real hpre _)
    (fun k j => wA m c (ix2 j k)) (fun k j => Cert.PreFacts.w_real hpre _)
    (fun j => bA m c (ix1 j)) (fun j => gA m c (ix1 j)) (fun j => betaA m c (ix1 j)) n j).symm

end Cert.Proof.Final

end
-- ==== Proof.lean ====
/-
  The word-level kernel program, its idealization and the reference each run to the end with their argument arrays
  unchanged; the idealization rewrote nothing; and from memories agreeing on the arguments the two idealized programs end
  with equal results: one graph-convolution layer, summed over edges before or after the linear map.
-/
import proofs.«413077_j6382321402034_1_alg».proof.Defs
import proofs.«413077_j6382321402034_1_alg».proof.Proof.Gen.Kernel
import proofs.«413077_j6382321402034_1_alg».proof.Proof.Gen.KernelIdeal
import proofs.«413077_j6382321402034_1_alg».proof.Proof.Gen.ReferenceIdeal
import proofs.«413077_j6382321402034_1_alg».proof.Proof.Gen.Pre_finite_inputs
import proofs.«413077_j6382321402034_1_alg».proof.Proof.KSegs
import proofs.«413077_j6382321402034_1_alg».proof.Proof.SegsVal
import proofs.«413077_j6382321402034_1_alg».proof.Proof.Final
import Idealize.ShloMosaic.Adequacy
import Idealize.ShloMosaic.Init

noncomputable section

namespace Cert.Proof

open Idealize.ShloMosaic Idealize.ShloMosaic.TcCoe Idealize.ShloMosaic.ValueIdx Idealize.SL.Sem Idealize.SL.BI

theorem frame_k [Cert.Kernel.Facts] [Cert.Pre_finite_inputs.Facts] : Cert.frame_Kernel :=
  fun m ρ _ => Cert.Kernel.Seg.frame m ρ

theorem frame_ki [Cert.KernelIdeal.Facts] [Cert.Pre_finite_inputs.Facts] : Cert.frame_KernelIdeal :=
  fun m ρ _ => Cert.KernelIdeal.Seg.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

open Cert.Proof.Final Cert.KernelIdeal Cert.KernelIdeal.Gen Cert.KernelIdeal.Seg in
/-- Both runs name their result array; the two arrays agree at every row and column (`rows_agree`). -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => o7 m c, Cert.KernelIdeal.Seg.run_value m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v72_eq, (hagree c).1, (hagree c).2.1, (hagree c).2.2.1, (hagree c).2.2.2.1,
    (hagree c).2.2.2.2.1, (hagree c).2.2.2.2.2]
  funext i
  obtain ⟨n, j, rfl⟩ : ∃ (n : Fin 50000) (j : Fin 128), i = ix2 n j := ⟨i 0, i 1, eq_ix2 i⟩
  exact rows_agree m c (hpre c) n j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
